-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x56x56x64 : Shape := ⟨4, ![32, 56, 56, 64]⟩
abbrev S3x3x64x128 : Shape := ⟨4, ![3, 3, 64, 128]⟩
abbrev S3x3x128x128 : Shape := ⟨4, ![3, 3, 128, 128]⟩
abbrev S128 : Shape := ⟨1, ![128]⟩
abbrev S_ : Shape := ⟨0, ![]⟩

class Facts : Prop where
  bcast_S_S32x56x56x64 : S_.BroadcastsInDim S32x56x56x64 (![] : Fin 0 → Fin S32x56x56x64.rank)
  reducesTo_S32x56x56x64_S_d0_1_2_3 : S32x56x56x64.ReducesTo [0, 1, 2, 3] S_
  h_S_ : 0 < S_.numel
  bcast_S_S3x3x64x128 : S_.BroadcastsInDim S3x3x64x128 (![] : Fin 0 → Fin S3x3x64x128.rank)
  reducesTo_S3x3x64x128_S_d0_1_2_3 : S3x3x64x128.ReducesTo [0, 1, 2, 3] S_
  bcast_S_S3x3x128x128 : S_.BroadcastsInDim S3x3x128x128 (![] : Fin 0 → Fin S3x3x128x128.rank)
  reducesTo_S3x3x128x128_S_d0_1_2_3 : S3x3x128x128.ReducesTo [0, 1, 2, 3] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S32x56x56x64 .f32) (main_arg1 : FVec F S3x3x64x128 .f32) (main_arg2 : FVec F S3x3x128x128 .f32) (main_arg3 : FVec F S128 .f32) (main_arg4 : FVec F S128 .f32) (main_arg5 : FVec F S128 .f32) (main_arg6 : FVec F S128 .f32) : IVec S_ 1 :=
  let main_v0 : FVec F S32x56x56x64 .f32 := Host.absf main_arg0
  let main_cst : FVec F S_ .f32 := constant S_ .f32 0x7F800000#32
  let main_v1 : FVec F S32x56x56x64 .f32 := broadcastInDim S32x56x56x64 ![] bcast_S_S32x56x56x64 main_cst
  let main_v2 : IVec S32x56x56x64 1 := cmpf .olt main_v0 main_v1
  let main_c : IVec S_ 1 := constantI S_ 1 1#1
  let main_v3 : IVec S_ 1 := (fun x v => Host.reduce IntOp.andi x v reducesTo_S32x56x56x64_S_d0_1_2_3 h_S_) main_v2 main_c
  let main_v4 : FVec F S3x3x64x128 .f32 := Host.absf main_arg1
  let main_cst_0 : FVec F S_ .f32 := constant S_ .f32 0x7F800000#32
  let main_v5 : FVec F S3x3x64x128 .f32 := broadcastInDim S3x3x64x128 ![] bcast_S_S3x3x64x128 main_cst_0
  let main_v6 : IVec S3x3x64x128 1 := cmpf .olt main_v4 main_v5
  let main_c_1 : IVec S_ 1 := constantI S_ 1 1#1
  let main_v7 : IVec S_ 1 := (fun x v => Host.reduce IntOp.andi x v reducesTo_S3x3x64x128_S_d0_1_2_3 h_S_) main_v6 main_c_1
  let main_v8 : IVec S_ 1 := andi main_v3 main_v7
  let main_v9 : FVec F S3x3x128x128 .f32 := Host.absf main_arg2
  let main_cst_2 : FVec F S_ .f32 := constant S_ .f32 0x7F800000#32
  let main_v10 : FVec F S3x3x128x128 .f32 := broadcastInDim S3x3x128x128 ![] bcast_S_S3x3x128x128 main_cst_2
  let main_v11 : IVec S3x3x128x128 1 := cmpf .olt main_v9 main_v10
  let main_c_3 : IVec S_ 1 := constantI S_ 1 1#1
  let main_v12 : IVec S_ 1 := (fun x v => Host.reduce IntOp.andi x v reducesTo_S3x3x128x128_S_d0_1_2_3 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S32x56x56x64 : Shape := ⟨4, ![32, 56, 56, 64]⟩
abbrev S3x3x64x128 : Shape := ⟨4, ![3, 3, 64, 128]⟩
abbrev S3x3x128x128 : Shape := ⟨4, ![3, 3, 128, 128]⟩
abbrev S128 : Shape := ⟨1, ![128]⟩
abbrev S576x128 : Shape := ⟨2, ![576, 128]⟩
abbrev S1152x128 : Shape := ⟨2, ![1152, 128]⟩
abbrev S_ : Shape := ⟨0, ![]⟩
abbrev S1x64 : Shape := ⟨2, ![1, 64]⟩
abbrev S32x56x56x128 : Shape := ⟨4, ![32, 56, 56, 128]⟩
abbrev S1x128 : Shape := ⟨2, ![1, 128]⟩
abbrev S1x56x56x64 : Shape := ⟨4, ![1, 56, 56, 64]⟩
abbrev S1x56x56x128 : Shape := ⟨4, ![1, 56, 56, 128]⟩
abbrev S58x58x64 : Shape := ⟨3, ![58, 58, 64]⟩
abbrev S56x56x64 : Shape := ⟨3, ![56, 56, 64]⟩
abbrev S56x58x64 : Shape := ⟨3, ![56, 58, 64]⟩
abbrev S56x56x576 : Shape := ⟨3, ![56, 56, 576]⟩
abbrev S3136x576 : Shape := ⟨2, ![3136, 576]⟩
abbrev S3136x128 : Shape := ⟨2, ![3136, 128]⟩
abbrev S58x58x128 : Shape := ⟨3, ![58, 58, 128]⟩
abbrev S56x56x128 : Shape := ⟨3, ![56, 56, 128]⟩
abbrev S1x1x128 : Shape := ⟨3, ![1, 1, 128]⟩
abbrev S56x58x128 : Shape := ⟨3, ![56, 58, 128]⟩
abbrev S56x56x1152 : Shape := ⟨3, ![56, 56, 1152]⟩
abbrev S3136x1152 : Shape := ⟨2, ![3136, 1152]⟩
abbrev S32x56x7168 : Shape := ⟨3, ![32, 56, 7168]⟩
abbrev S1x1x1x128 : Shape := ⟨4, ![1, 1, 1, 128]⟩
abbrev S1x1x56x128 : Shape := ⟨4, ![1, 1, 56, 128]⟩
abbrev S1x7168 : Shape := ⟨2, ![1, 7168]⟩
abbrev S4x56x7168 : Shape := ⟨3, ![4, 56, 7168]⟩
abbrev S1x1x7168 : Shape := ⟨3, ![1, 1, 7168]⟩

abbrev nBuf : Space → Nat
  | .hbm => 70
  | .vmem => 26
  | .smem => 0
  | _ => 0

abbrev bufTy : (tb : Table) → Fin (tcTables nBuf tb) → BufTy
  | .hbm, ⟨0, _⟩ => ⟨S32x56x56x64, .f32⟩
  | .hbm, ⟨1, _⟩ => ⟨S3x3x64x128, .f32⟩
  | .hbm, ⟨2, _⟩ => ⟨S3x3x128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S576x128, .f32⟩
  | .hbm, ⟨8, _⟩ => ⟨S576x128, .bf16⟩
  | .hbm, ⟨9, _⟩ => ⟨S1152x128, .f32⟩
  | .hbm, ⟨10, _⟩ => ⟨S1152x128, .bf16⟩
  | .hbm, ⟨11, _⟩ => ⟨S_, .f32⟩
  | .hbm, ⟨12, _⟩ => ⟨S1x64, .f32⟩
  | .hbm, ⟨13, _⟩ => ⟨S_, .f32⟩
  | .hbm, ⟨14, _⟩ => ⟨S1x64, .f32⟩
  | .hbm, ⟨15, _⟩ => ⟨S32x56x56x128, .bf16⟩
  | .hbm, ⟨16, _⟩ => ⟨S1x128, .f32⟩
  | .hbm, ⟨17, _⟩ => ⟨S1x128, .f32⟩
  | .hbm, ⟨18, _⟩ => ⟨S_, .f32⟩
  | .hbm, ⟨19, _⟩ => ⟨S1x128, .f32⟩
  | .hbm, ⟨20, _⟩ => ⟨S1x128, .f32⟩
  | .hbm, ⟨21, _⟩ => ⟨S_, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S32x56x56x128, .bf16⟩
  | .hbm, ⟨39, _⟩ => ⟨S1x128, .f32⟩
  | .hbm, ⟨40, _⟩ => ⟨S1x128, .f32⟩
  | .hbm, ⟨41, _⟩ => ⟨S_, .f32⟩
  | .hbm, ⟨42, _⟩ => ⟨S1x128, .f32⟩
  | .hbm, ⟨43, _⟩ => ⟨S1x128, .f32⟩
  | .hbm, ⟨44, _⟩ => ⟨S_, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S32x56x7168, .bf16⟩
  | .hbm, ⟨62, _⟩ => ⟨S1x1x1x128, .f32⟩
  | .hbm, ⟨63, _⟩ => ⟨S1x1x56x128, .f32⟩
  | .hbm, ⟨64, _⟩ => ⟨S1x7168, .f32⟩
  | .hbm, ⟨65, _⟩ => ⟨S1x1x1x128, .f32⟩
  | .hbm, ⟨66, _⟩ => ⟨S1x1x56x128, .f32⟩
  | .hbm, ⟨67, _⟩ => ⟨S1x7168, .f32⟩
  | .hbm, ⟨68, _⟩ => ⟨S32x56x7168, .f32⟩
  | .hbm, ⟨69, _⟩ => ⟨S32x56x56x128, .f32⟩
  | .local _ .vmem, ⟨0, _⟩ => ⟨S1x64, .f32⟩
  | .local _ .vmem, ⟨1, _⟩ => ⟨S1x64, .f32⟩
  | .local _ .vmem, ⟨2, _⟩ => ⟨S1x56x56x64, .f32⟩
  | .local _ .vmem, ⟨3, _⟩ => ⟨S1x56x56x64, .f32⟩
  | .local _ .vmem, ⟨4, _⟩ => ⟨S576x128, .bf16⟩
  | .local _ .vmem, ⟨5, _⟩ => ⟨S1x56x56x128, .bf16⟩
  | .local _ .vmem, ⟨6, _⟩ => ⟨S1x56x56x128, .bf16⟩
  | .local _ .vmem, ⟨7, _⟩ => ⟨S1x128, .f32⟩
  | .local _ .vmem, ⟨8, _⟩ => ⟨S1x128, .f32⟩
  | .local _ .vmem, ⟨9, _⟩ => ⟨S58x58x64, .bf16⟩
  | .local _ .vmem, ⟨10, _⟩ => ⟨S1x128, .f32⟩
  | .local _ .vmem, ⟨11, _⟩ => ⟨S1x128, .f32⟩
  | .local _ .vmem, ⟨12, _⟩ => ⟨S1x56x56x128, .bf16⟩
  | .local _ .vmem, ⟨13, _⟩ => ⟨S1x56x56x128, .bf16⟩
  | .local _ .vmem, ⟨14, _⟩ => ⟨S1152x128, .bf16⟩
  | .local _ .vmem, ⟨15, _⟩ => ⟨S1x56x56x128, .bf16⟩
  | .local _ .vmem, ⟨16, _⟩ => ⟨S1x56x56x128, .bf16⟩
  | .local _ .vmem, ⟨17, _⟩ => ⟨S1x128, .f32⟩
  | .local _ .vmem, ⟨18, _⟩ => ⟨S1x128, .f32⟩
  | .local _ .vmem, ⟨19, _⟩ => ⟨S58x58x128, .bf16⟩
  | .local _ .vmem, ⟨20, _⟩ => ⟨S1x7168, .f32⟩
  | .local _ .vmem, ⟨21, _⟩ => ⟨S1x7168, .f32⟩
  | .local _ .vmem, ⟨22, _⟩ => ⟨S4x56x7168, .bf16⟩
  | .local _ .vmem, ⟨23, _⟩ => ⟨S4x56x7168, .bf16⟩
  | .local _ .vmem, ⟨24, _⟩ => ⟨S4x56x7168, .f32⟩
  | .local _ .vmem, ⟨25, _⟩ => ⟨S4x56x7168, .f32⟩
  | _, _ => ⟨S32x56x56x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_v23_2 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg6_0 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc1_sem0_0 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem6_0 : DmaSem sig := 17
abbrev cc2_sem0_0 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x56x56x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S576x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x56x56x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x56x56x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1152x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x56x56x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S1x7168 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x7168 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4x56x7168 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4x56x7168 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S3x3x64x128_S576x128 : S3x3x64x128.ShapeCasts S576x128
  bitsLt_bf16_f32 : FTy.bits .bf16 < FTy.bits .f32
  shapeCasts_S3x3x128x128_S1152x128 : S3x3x128x128.ShapeCasts S1152x128
  bcast_S_S1x64 : S_.BroadcastsInDim S1x64 (![] : Fin 0 → Fin S1x64.rank)
  inb_S58x58x64_S58x58x64_0_0_0 : ∀ a, (![0, 0, 0] : Fin 3 → Nat) a + S58x58x64.size a ≤ S58x58x64.size a
  h_S58x58x64 : 0 < S58x58x64.numel
  shapeCasts_S58x58x64_S58x58x64 : S58x58x64.ShapeCasts S58x58x64
  packedbf16_S58x58x64_S58x58x64_0_0_0 : (Rect.unit (s := S58x58x64) ![0, 0, 0] S58x58x64.size inb_S58x58x64_S58x58x64_0_0_0).PackedRows (EltTy.packing .bf16)
  inb_S1x128_S1x128_0_0 : ∀ a, (![0, 0] : Fin 2 → Nat) a + S1x128.size a ≤ S1x128.size a
  h_S1x128 : 0 < S1x128.numel
  inb_S1x56x56x64_S1x56x56x64_0_0_0_0 : ∀ a, (![0, 0, 0, 0] : Fin 4 → Nat) a + S1x56x56x64.size a ≤ S1x56x56x64.size a
  h_S1x56x56x64 : 0 < S1x56x56x64.numel
  shapeCasts_S1x56x56x64_S56x56x64 : S1x56x56x64.ShapeCasts S56x56x64
  inb_S58x58x64_S56x56x64_1_1_0 : ∀ a, (![1, 1, 0] : Fin 3 → Nat) a + S56x56x64.size a ≤ S58x58x64.size a
  h_S56x56x64 : 0 < S56x56x64.numel
  shapeCasts_S56x56x64_S56x56x64 : S56x56x64.ShapeCasts S56x56x64
  inb_S58x58x64_S56x58x64_1_0_0 : ∀ a, (![1, 0, 0] : Fin 3 → Nat) a + S56x58x64.size a ≤ S58x58x64.size a
  h_S56x58x64 : 0 < S56x58x64.numel
  slices_S56x58x64_S56x56x64_0_1_0 : S56x58x64.Slices ![0, 1, 0] S56x56x64
  packedbf16_S58x58x64_S56x58x64_1_0_0 : (Rect.unit (s := S58x58x64) ![1, 0, 0] S56x58x64.size inb_S58x58x64_S56x58x64_1_0_0).PackedRows (EltTy.packing .bf16)
  inb_S58x58x64_S56x56x64_0_0_0 : ∀ a, (![0, 0, 0] : Fin 3 → Nat) a + S56x56x64.size a ≤ S58x58x64.size a
  inb_S58x58x64_S56x56x64_0_1_0 : ∀ a, (![0, 1, 0] : Fin 3 → Nat) a + S56x56x64.size a ≤ S58x58x64.size a
  inb_S58x58x64_S56x56x64_0_2_0 : ∀ a, (![0, 2, 0] : Fin 3 → Nat) a + S56x56x64.size a ≤ S58x58x64.size a
  inb_S58x58x64_S56x56x64_1_0_0 : ∀ a, (![1, 0, 0] : Fin 3 → Nat) a + S56x56x64.size a ≤ S58x58x64.size a
  inb_S58x58x64_S56x56x64_1_2_0 : ∀ a, (![1, 2, 0] : Fin 3 → Nat) a + S56x56x64.size a ≤ S58x58x64.size a
  inb_S58x58x64_S56x56x64_2_0_0 : ∀ a, (![2, 0, 0] : Fin 3 → Nat) a + S56x56x64.size a ≤ S58x58x64.size a
  inb_S58x58x64_S56x56x64_2_1_0 : ∀ a, (![2, 1, 0] : Fin 3 → Nat) a + S56x56x64.size a ≤ S58x58x64.size a
  inb_S58x58x64_S56x56x64_2_2_0 : ∀ a, (![2, 2, 0] : Fin 3 → Nat) a + S56x56x64.size a ≤ S58x58x64.size a
  concatenates_S56x56x64_S56x56x64_S56x56x64_S56x56x64_S56x56x64_S56x56x64_S56x56x64_S56x56x64_S56x56x64_S56x56x576_d2 : Shape.Concatenates [S56x56x64, S56x56x64, S56x56x64, S56x56x64, S56x56x64, S56x56x64, S56x56x64, S56x56x64, S56x56x64] S56x56x576 2
  shapeCasts_S56x56x576_S3136x576 : S56x56x576.ShapeCasts S3136x576
  inb_S576x128_S576x128_0_0 : ∀ a, (![0, 0] : Fin 2 → Nat) a + S576x128.size a ≤ S576x128.size a
  h_S576x128 : 0 < S576x128.numel
  shapeCasts_S576x128_S576x128 : S576x128.ShapeCasts S576x128
  shapeCasts_S3136x128_S1x56x56x128 : S3136x128.ShapeCasts S1x56x56x128
  inb_S1x56x56x128_S1x56x56x128_0_0_0_0 : ∀ a, (![0, 0, 0, 0] : Fin 4 → Nat) a + S1x56x56x128.size a ≤ S1x56x56x128.size a
  h_S1x56x56x128 : 0 < S1x56x56x128.numel
  packedbf16_S1x56x56x128_S1x56x56x128_0_0_0_0 : (Rect.unit (s := S1x56x56x128) ![0, 0, 0, 0] S1x56x56x128.size inb_S1x56x56x128_S1x56x56x128_0_0_0_0).PackedRows (EltTy.packing .bf16)
  shapeCasts_S1x128_S1x128 : S1x128.ShapeCasts S1x128
  reduces_S3136x128_S128 : S3136x128.Reduces [0] S128
  shapeCasts_S128_S1x128 : S128.ShapeCasts S1x128
  bcast_S_S1x128 : S_.BroadcastsInDim S1x128 (![] : Fin 0 → Fin S1x128.rank)
  inb_S58x58x128_S58x58x128_0_0_0 : ∀ a, (![0, 0, 0] : Fin 3 → Nat) a + S58x58x128.size a ≤ S58x58x128.size a
  h_S58x58x128 : 0 < S58x58x128.numel
  shapeCasts_S58x58x128_S58x58x128 : S58x58x128.ShapeCasts S58x58x128
  packedbf16_S58x58x128_S58x58x128_0_0_0 : (Rect.unit (s := S58x58x128) ![0, 0, 0] S58x58x128.size inb_S58x58x128_S58x58x128_0_0_0).PackedRows (EltTy.packing .bf16)
  shapeCasts_S1x56x56x128_S56x56x128 : S1x56x56x128.ShapeCasts S56x56x128
  shapeCasts_S1x128_S1x1x128 : S1x128.ShapeCasts S1x1x128
  broadcasts_S1x1x128_S56x56x128 : S1x1x128.Broadcasts S56x56x128
  inb_S58x58x128_S56x56x128_1_1_0 : ∀ a, (![1, 1, 0] : Fin 3 → Nat) a + S56x56x128.size a ≤ S58x58x128.size a
  h_S56x56x128 : 0 < S56x56x128.numel
  shapeCasts_S56x56x128_S56x56x128 : S56x56x128.ShapeCasts S56x56x128
  inb_S58x58x128_S56x58x128_1_0_0 : ∀ a, (![1, 0, 0] : Fin 3 → Nat) a + S56x58x128.size a ≤ S58x58x128.size a
  h_S56x58x128 : 0 < S56x58x128.numel
  slices_S56x58x128_S56x56x128_0_1_0 : S56x58x128.Slices ![0, 1, 0] S56x56x128
  packedbf16_S58x58x128_S56x58x128_1_0_0 : (Rect.unit (s := S58x58x128) ![1, 0, 0] S56x58x128.size inb_S58x58x128_S56x58x128_1_0_0).PackedRows (EltTy.packing .bf16)
  inb_S58x58x128_S56x56x128_0_0_0 : ∀ a, (![0, 0, 0] : Fin 3 → Nat) a + S56x56x128.size a ≤ S58x58x128.size a
  inb_S58x58x128_S56x56x128_0_1_0 : ∀ a, (![0, 1, 0] : Fin 3 → Nat) a + S56x56x128.size a ≤ S58x58x128.size a
  inb_S58x58x128_S56x56x128_0_2_0 : ∀ a, (![0, 2, 0] : Fin 3 → Nat) a + S56x56x128.size a ≤ S58x58x128.size a
  inb_S58x58x128_S56x56x128_1_0_0 : ∀ a, (![1, 0, 0] : Fin 3 → Nat) a + S56x56x128.size a ≤ S58x58x128.size a
  inb_S58x58x128_S56x56x128_1_2_0 : ∀ a, (![1, 2, 0] : Fin 3 → Nat) a + S56x56x128.size a ≤ S58x58x128.size a
  inb_S58x58x128_S56x56x128_2_0_0 : ∀ a, (![2, 0, 0] : Fin 3 → Nat) a + S56x56x128.size a ≤ S58x58x128.size a
  inb_S58x58x128_S56x56x128_2_1_0 : ∀ a, (![2, 1, 0] : Fin 3 → Nat) a + S56x56x128.size a ≤ S58x58x128.size a
  inb_S58x58x128_S56x56x128_2_2_0 : ∀ a, (![2, 2, 0] : Fin 3 → Nat) a + S56x56x128.size a ≤ S58x58x128.size a
  concatenates_S56x56x128_S56x56x128_S56x56x128_S56x56x128_S56x56x128_S56x56x128_S56x56x128_S56x56x128_S56x56x128_S56x56x1152_d2 : Shape.Concatenates [S56x56x128, S56x56x128, S56x56x128, S56x56x128, S56x56x128, S56x56x128, S56x56x128, S56x56x128, S56x56x128] S56x56x1152 2
  shapeCasts_S56x56x1152_S3136x1152 : S56x56x1152.ShapeCasts S3136x1152
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  shapeCasts_S32x56x56x128_S32x56x7168 : S32x56x56x128.ShapeCasts S32x56x7168
  shapeCasts_S1x128_S1x1x1x128 : S1x128.ShapeCasts S1x1x1x128
  bcast_S1x1x1x128_S1x1x56x128_0_1_2_3 : S1x1x1x128.BroadcastsInDim S1x1x56x128 (![0, 1, 2, 3] : Fin 4 → Fin S1x1x56x128.rank)
  shapeCasts_S1x1x56x128_S1x7168 : S1x1x56x128.ShapeCasts S1x7168
  inb_S4x56x7168_S4x56x7168_0_0_0 : ∀ a, (![0, 0, 0] : Fin 3 → Nat) a + S4x56x7168.size a ≤ S4x56x7168.size a
  h_S4x56x7168 : 0 < S4x56x7168.numel
  shapeCasts_S4x56x7168_S4x56x7168 : S4x56x7168.ShapeCasts S4x56x7168
  inb_S1x7168_S1x7168_0_0 : ∀ a, (![0, 0] : Fin 2 → Nat) a + S1x7168.size a ≤ S1x7168.size a
  h_S1x7168 : 0 < S1x7168.numel
  shapeCasts_S1x7168_S1x7168 : S1x7168.ShapeCasts S1x7168
  shapeCasts_S1x7168_S1x1x7168 : S1x7168.ShapeCasts S1x1x7168
  broadcasts_S1x1x7168_S4x56x7168 : S1x1x7168.Broadcasts S4x56x7168
  shapeCasts_S32x56x7168_S32x56x56x128 : S32x56x7168.ShapeCasts S32x56x56x128
  dot_S3136x576_S576x128_S3136x128_1_0_0_1_n_n_wf : DotDims.WF S3136x576 S576x128 S3136x128 [1] [0] [0] [1] [] []
  dot_S3136x1152_S1152x128_S3136x128_1_0_0_1_n_n_wf : DotDims.WF S3136x1152 S1152x128 S3136x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x64.size a ≤ S1x64.size a
  hwx0_0 : ∀ i : grid0.Coords, EltTy.bits .f32 = 32 ∨ (Rect.block (s := S1x64) S1x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x56x56x64.size a ≤ S32x56x56x64.size a
  hwx0_2 : ∀ i : grid0.Coords, EltTy.bits .f32 = 32 ∨ (Rect.block (s := S32x56x56x64) S1x56x56x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S576x128.size a ≤ S576x128.size a
  hwx0_3 : ∀ i : grid0.Coords, EltTy.bits .bf16 = 32 ∨ (Rect.block (s := S576x128) S576x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x56x56x128.size a ≤ S32x56x56x128.size a
  hwx0_4 : ∀ i : grid0.Coords, EltTy.bits .bf16 = 32 ∨ (Rect.block (s := S32x56x56x128) S1x56x56x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x128.size a ≤ S1x128.size a
  hwx1_0 : ∀ i : grid1.Coords, EltTy.bits .f32 = 32 ∨ (Rect.block (s := S1x128) S1x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x56x56x128.size a ≤ S32x56x56x128.size a
  hwx1_2 : ∀ i : grid1.Coords, EltTy.bits .bf16 = 32 ∨ (Rect.block (s := S32x56x56x128) S1x56x56x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1152x128.size a ≤ S1152x128.size a
  hwx1_3 : ∀ i : grid1.Coords, EltTy.bits .bf16 = 32 ∨ (Rect.block (s := S1152x128) S1152x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x56x56x128.size a ≤ S32x56x56x128.size a
  hwx1_4 : ∀ i : grid1.Coords, EltTy.bits .bf16 = 32 ∨ (Rect.block (s := S32x56x56x128) S1x56x56x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x7168.size a ≤ S1x7168.size a
  hwx2_0 : ∀ i : grid2.Coords, EltTy.bits .f32 = 32 ∨ (Rect.block (s := S1x7168) S1x7168.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x7168.size a ≤ S1x7168.size a
  hwx2_1 : ∀ i : grid2.Coords, EltTy.bits .f32 = 32 ∨ (Rect.block (s := S1x7168) S1x7168.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4x56x7168.size a ≤ S32x56x7168.size a
  hwx2_2 : ∀ i : grid2.Coords, EltTy.bits .bf16 = 32 ∨ (Rect.block (s := S32x56x7168) S4x56x7168.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4x56x7168.size a ≤ S32x56x7168.size a
  hwx2_3 : ∀ i : grid2.Coords, EltTy.bits .f32 = 32 ∨ (Rect.block (s := S32x56x7168) S4x56x7168.size (cc2_transform_3 i) (hinb2_3 i)).WholeWords (EltTy.packing .f32)

variable [Facts₀]

def dot_S3136x576_S576x128_S3136x128_1_0_0_1_n_n : DotDims S3136x576 S576x128 S3136x128 where
  lhsContracting := [1]
  rhsContracting := [0]
  lhsNonContracting := [0]
  rhsNonContracting := [1]
  lhsBatch := []
  rhsBatch := []
  wf := dot_S3136x576_S576x128_S3136x128_1_0_0_1_n_n_wf
def dot_S3136x1152_S1152x128_S3136x128_1_0_0_1_n_n : DotDims S3136x1152 S1152x128 S3136x128 where
  lhsContracting := [1]
  rhsContracting := [0]
  lhsNonContracting := [0]
  rhsNonContracting := [1]
  lhsBatch := []
  rhsBatch := []
  wf := dot_S3136x1152_S1152x128_S3136x128_1_0_0_1_n_n_wf

abbrev win0_0 : Pipeline.Window sig grid0 :=
  Pipeline.Window.ofSpec (Memref.whole main_v4) S1x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x56x56x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S576x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1x56x56x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19) S1x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6_0) S1x56x56x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1152x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23_0) S1x56x56x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v23_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43) S1x7168.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x7168.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S4x56x7168.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v47) S4x56x7168.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S32x56x56x64 : Shape := ⟨4, ![32, 56, 56, 64]⟩
abbrev S3x3x64x128 : Shape := ⟨4, ![3, 3, 64, 128]⟩
abbrev S3x3x128x128 : Shape := ⟨4, ![3, 3, 128, 128]⟩
abbrev S128 : Shape := ⟨1, ![128]⟩
abbrev S576x128 : Shape := ⟨2, ![576, 128]⟩
abbrev S1152x128 : Shape := ⟨2, ![1152, 128]⟩
abbrev S_ : Shape := ⟨0, ![]⟩
abbrev S1x64 : Shape := ⟨2, ![1, 64]⟩
abbrev S32x56x56x128 : Shape := ⟨4, ![32, 56, 56, 128]⟩
abbrev S1x128 : Shape := ⟨2, ![1, 128]⟩
abbrev S1x56x56x64 : Shape := ⟨4, ![1, 56, 56, 64]⟩
abbrev S1x56x56x128 : Shape := ⟨4, ![1, 56, 56, 128]⟩
abbrev S58x58x64 : Shape := ⟨3, ![58, 58, 64]⟩
abbrev S56x56x64 : Shape := ⟨3, ![56, 56, 64]⟩
abbrev S56x56x576 : Shape := ⟨3, ![56, 56, 576]⟩
abbrev S3136x576 : Shape := ⟨2, ![3136, 576]⟩
abbrev S3136x128 : Shape := ⟨2, ![3136, 128]⟩
abbrev S58x58x128 : Shape := ⟨3, ![58, 58, 128]⟩
abbrev S56x56x128 : Shape := ⟨3, ![56, 56, 128]⟩
abbrev S1x1x128 : Shape := ⟨3, ![1, 1, 128]⟩
abbrev S56x56x1152 : Shape := ⟨3, ![56, 56, 1152]⟩
abbrev S3136x1152 : Shape := ⟨2, ![3136, 1152]⟩
abbrev S32x56x7168 : Shape := ⟨3, ![32, 56, 7168]⟩
abbrev S1x1x1x128 : Shape := ⟨4, ![1, 1, 1, 128]⟩
abbrev S1x1x56x128 : Shape := ⟨4, ![1, 1, 56, 128]⟩
abbrev S1x7168 : Shape := ⟨2, ![1, 7168]⟩
abbrev S1x56x7168 : Shape := ⟨3, ![1, 56, 7168]⟩
abbrev S1x1x7168 : Shape := ⟨3, ![1, 1, 7168]⟩

abbrev nBuf : Space → Nat
  | .hbm => 68
  | .vmem => 26
  | .smem => 0
  | _ => 0

abbrev bufTy : (tb : Table) → Fin (tcTables nBuf tb) → BufTy
  | .hbm, ⟨0, _⟩ => ⟨S32x56x56x64, .f32⟩
  | .hbm, ⟨1, _⟩ => ⟨S3x3x64x128, .f32⟩
  | .hbm, ⟨2, _⟩ => ⟨S3x3x128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S576x128, .f32⟩
  | .hbm, ⟨8, _⟩ => ⟨S1152x128, .f32⟩
  | .hbm, ⟨9, _⟩ => ⟨S_, .f32⟩
  | .hbm, ⟨10, _⟩ => ⟨S1x64, .f32⟩
  | .hbm, ⟨11, _⟩ => ⟨S_, .f32⟩
  | .hbm, ⟨12, _⟩ => ⟨S1x64, .f32⟩
  | .hbm, ⟨13, _⟩ => ⟨S32x56x56x128, .f32⟩
  | .hbm, ⟨14, _⟩ => ⟨S1x128, .f32⟩
  | .hbm, ⟨15, _⟩ => ⟨S1x128, .f32⟩
  | .hbm, ⟨16, _⟩ => ⟨S_, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S_, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S_, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S32x56x56x128, .f32⟩
  | .hbm, ⟨37, _⟩ => ⟨S1x128, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S_, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S32x56x7168, .f32⟩
  | .hbm, ⟨60, _⟩ => ⟨S1x1x1x128, .f32⟩
  | .hbm, ⟨61, _⟩ => ⟨S1x1x56x128, .f32⟩
  | .hbm, ⟨62, _⟩ => ⟨S1x7168, .f32⟩
  | .hbm, ⟨63, _⟩ => ⟨S1x1x1x128, .f32⟩
  | .hbm, ⟨64, _⟩ => ⟨S1x1x56x128, .f32⟩
  | .hbm, ⟨65, _⟩ => ⟨S1x7168, .f32⟩
  | .hbm, ⟨66, _⟩ => ⟨S32x56x7168, .f32⟩
  | .hbm, ⟨67, _⟩ => ⟨S32x56x56x128, .f32⟩
  | .local _ .vmem, ⟨0, _⟩ => ⟨S1x64, .f32⟩
  | .local _ .vmem, ⟨1, _⟩ => ⟨S1x64, .f32⟩
  | .local _ .vmem, ⟨2, _⟩ => ⟨S1x56x56x64, .f32⟩
  | .local _ .vmem, ⟨3, _⟩ => ⟨S1x56x56x64, .f32⟩
  | .local _ .vmem, ⟨4, _⟩ => ⟨S576x128, .f32⟩
  | .local _ .vmem, ⟨5, _⟩ => ⟨S1x56x56x128, .f32⟩
  | .local _ .vmem, ⟨6, _⟩ => ⟨S1x56x56x128, .f32⟩
  | .local _ .vmem, ⟨7, _⟩ => ⟨S1x128, .f32⟩
  | .local _ .vmem, ⟨8, _⟩ => ⟨S1x128, .f32⟩
  | .local _ .vmem, ⟨9, _⟩ => ⟨S58x58x64, .f32⟩
  | .local _ .vmem, ⟨10, _⟩ => ⟨S1x128, .f32⟩
  | .local _ .vmem, ⟨11, _⟩ => ⟨S1x128, .f32⟩
  | .local _ .vmem, ⟨12, _⟩ => ⟨S1x56x56x128, .f32⟩
  | .local _ .vmem, ⟨13, _⟩ => ⟨S1x56x56x128, .f32⟩
  | .local _ .vmem, ⟨14, _⟩ => ⟨S1152x128, .f32⟩
  | .local _ .vmem, ⟨15, _⟩ => ⟨S1x56x56x128, .f32⟩
  | .local _ .vmem, ⟨16, _⟩ => ⟨S1x56x56x128, .f32⟩
  | .local _ .vmem, ⟨17, _⟩ => ⟨S1x128, .f32⟩
  | .local _ .vmem, ⟨18, _⟩ => ⟨S1x128, .f32⟩
  | .local _ .vmem, ⟨19, _⟩ => ⟨S58x58x128, .f32⟩
  | .local _ .vmem, ⟨20, _⟩ => ⟨S1x7168, .f32⟩
  | .local _ .vmem, ⟨21, _⟩ => ⟨S1x7168, .f32⟩
  | .local _ .vmem, ⟨22, _⟩ => ⟨S1x56x7168, .f32⟩
  | .local _ .vmem, ⟨23, _⟩ => ⟨S1x56x7168, .f32⟩
  | .local _ .vmem, ⟨24, _⟩ => ⟨S1x56x7168, .f32⟩
  | .local _ .vmem, ⟨25, _⟩ => ⟨S1x56x7168, .f32⟩
  | _, _ => ⟨S32x56x56x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_v21_2 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg6_0 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc1_sem0_0 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem6_0 : DmaSem sig := 17
abbrev cc2_sem0_0 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x56x56x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S576x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x56x56x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev grid1 : Pipeline.Grid := ⟨2, ![1, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S1x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x56x56x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1152x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

abbrev stage1_4 : Fin 2 → Memref sig .tc .vmem S1x56x56x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S1x7168 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x7168 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x56x7168 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x56x7168 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S3x3x64x128_S576x128 : S3x3x64x128.ShapeCasts S576x128
  shapeCasts_S3x3x128x128_S1152x128 : S3x3x128x128.ShapeCasts S1152x128
  bcast_S_S1x64 : S_.BroadcastsInDim S1x64 (![] : Fin 0 → Fin S1x64.rank)
  inb_S58x58x64_S58x58x64_0_0_0 : ∀ a, (![0, 0, 0] : Fin 3 → Nat) a + S58x58x64.size a ≤ S58x58x64.size a
  h_S58x58x64 : 0 < S58x58x64.numel
  shapeCasts_S58x58x64_S58x58x64 : S58x58x64.ShapeCasts S58x58x64
  inb_S1x128_S1x128_0_0 : ∀ a, (![0, 0] : Fin 2 → Nat) a + S1x128.size a ≤ S1x128.size a
  h_S1x128 : 0 < S1x128.numel
  inb_S1x56x56x64_S1x56x56x64_0_0_0_0 : ∀ a, (![0, 0, 0, 0] : Fin 4 → Nat) a + S1x56x56x64.size a ≤ S1x56x56x64.size a
  h_S1x56x56x64 : 0 < S1x56x56x64.numel
  shapeCasts_S1x56x56x64_S56x56x64 : S1x56x56x64.ShapeCasts S56x56x64
  inb_S58x58x64_S56x56x64_1_1_0 : ∀ a, (![1, 1, 0] : Fin 3 → Nat) a + S56x56x64.size a ≤ S58x58x64.size a
  h_S56x56x64 : 0 < S56x56x64.numel
  shapeCasts_S56x56x64_S56x56x64 : S56x56x64.ShapeCasts S56x56x64
  inb_S58x58x64_S56x56x64_0_0_0 : ∀ a, (![0, 0, 0] : Fin 3 → Nat) a + S56x56x64.size a ≤ S58x58x64.size a
  inb_S58x58x64_S56x56x64_0_1_0 : ∀ a, (![0, 1, 0] : Fin 3 → Nat) a + S56x56x64.size a ≤ S58x58x64.size a
  inb_S58x58x64_S56x56x64_0_2_0 : ∀ a, (![0, 2, 0] : Fin 3 → Nat) a + S56x56x64.size a ≤ S58x58x64.size a
  inb_S58x58x64_S56x56x64_1_0_0 : ∀ a, (![1, 0, 0] : Fin 3 → Nat) a + S56x56x64.size a ≤ S58x58x64.size a
  inb_S58x58x64_S56x56x64_1_2_0 : ∀ a, (![1, 2, 0] : Fin 3 → Nat) a + S56x56x64.size a ≤ S58x58x64.size a
  inb_S58x58x64_S56x56x64_2_0_0 : ∀ a, (![2, 0, 0] : Fin 3 → Nat) a + S56x56x64.size a ≤ S58x58x64.size a
  inb_S58x58x64_S56x56x64_2_1_0 : ∀ a, (![2, 1, 0] : Fin 3 → Nat) a + S56x56x64.size a ≤ S58x58x64.size a
  inb_S58x58x64_S56x56x64_2_2_0 : ∀ a, (![2, 2, 0] : Fin 3 → Nat) a + S56x56x64.size a ≤ S58x58x64.size a
  concatenates_S56x56x64_S56x56x64_S56x56x64_S56x56x64_S56x56x64_S56x56x64_S56x56x64_S56x56x64_S56x56x64_S56x56x576_d2 : Shape.Concatenates [S56x56x64, S56x56x64, S56x56x64, S56x56x64, S56x56x64, S56x56x64, S56x56x64, S56x56x64, S56x56x64] S56x56x576 2
  shapeCasts_S56x56x576_S3136x576 : S56x56x576.ShapeCasts S3136x576
  inb_S576x128_S576x128_0_0 : ∀ a, (![0, 0] : Fin 2 → Nat) a + S576x128.size a ≤ S576x128.size a
  h_S576x128 : 0 < S576x128.numel
  shapeCasts_S576x128_S576x128 : S576x128.ShapeCasts S576x128
  shapeCasts_S3136x128_S1x56x56x128 : S3136x128.ShapeCasts S1x56x56x128
  inb_S1x56x56x128_S1x56x56x128_0_0_0_0 : ∀ a, (![0, 0, 0, 0] : Fin 4 → Nat) a + S1x56x56x128.size a ≤ S1x56x56x128.size a
  h_S1x56x56x128 : 0 < S1x56x56x128.numel
  shapeCasts_S1x128_S1x128 : S1x128.ShapeCasts S1x128
  reduces_S3136x128_S128 : S3136x128.Reduces [0] S128
  shapeCasts_S128_S1x128 : S128.ShapeCasts S1x128
  bcast_S_S1x128 : S_.BroadcastsInDim S1x128 (![] : Fin 0 → Fin S1x128.rank)
  inb_S58x58x128_S58x58x128_0_0_0 : ∀ a, (![0, 0, 0] : Fin 3 → Nat) a + S58x58x128.size a ≤ S58x58x128.size a
  h_S58x58x128 : 0 < S58x58x128.numel
  shapeCasts_S58x58x128_S58x58x128 : S58x58x128.ShapeCasts S58x58x128
  shapeCasts_S1x56x56x128_S56x56x128 : S1x56x56x128.ShapeCasts S56x56x128
  shapeCasts_S1x128_S1x1x128 : S1x128.ShapeCasts S1x1x128
  broadcasts_S1x1x128_S56x56x128 : S1x1x128.Broadcasts S56x56x128
  inb_S58x58x128_S56x56x128_1_1_0 : ∀ a, (![1, 1, 0] : Fin 3 → Nat) a + S56x56x128.size a ≤ S58x58x128.size a
  h_S56x56x128 : 0 < S56x56x128.numel
  shapeCasts_S56x56x128_S56x56x128 : S56x56x128.ShapeCasts S56x56x128
  inb_S58x58x128_S56x56x128_0_0_0 : ∀ a, (![0, 0, 0] : Fin 3 → Nat) a + S56x56x128.size a ≤ S58x58x128.size a
  inb_S58x58x128_S56x56x128_0_1_0 : ∀ a, (![0, 1, 0] : Fin 3 → Nat) a + S56x56x128.size a ≤ S58x58x128.size a
  inb_S58x58x128_S56x56x128_0_2_0 : ∀ a, (![0, 2, 0] : Fin 3 → Nat) a + S56x56x128.size a ≤ S58x58x128.size a
  inb_S58x58x128_S56x56x128_1_0_0 : ∀ a, (![1, 0, 0] : Fin 3 → Nat) a + S56x56x128.size a ≤ S58x58x128.size a
  inb_S58x58x128_S56x56x128_1_2_0 : ∀ a, (![1, 2, 0] : Fin 3 → Nat) a + S56x56x128.size a ≤ S58x58x128.size a
  inb_S58x58x128_S56x56x128_2_0_0 : ∀ a, (![2, 0, 0] : Fin 3 → Nat) a + S56x56x128.size a ≤ S58x58x128.size a
  inb_S58x58x128_S56x56x128_2_1_0 : ∀ a, (![2, 1, 0] : Fin 3 → Nat) a + S56x56x128.size a ≤ S58x58x128.size a
  inb_S58x58x128_S56x56x128_2_2_0 : ∀ a, (![2, 2, 0] : Fin 3 → Nat) a + S56x56x128.size a ≤ S58x58x128.size a
  concatenates_S56x56x128_S56x56x128_S56x56x128_S56x56x128_S56x56x128_S56x56x128_S56x56x128_S56x56x128_S56x56x128_S56x56x1152_d2 : Shape.Concatenates [S56x56x128, S56x56x128, S56x56x128, S56x56x128, S56x56x128, S56x56x128, S56x56x128, S56x56x128, S56x56x128] S56x56x1152 2
  shapeCasts_S56x56x1152_S3136x1152 : S56x56x1152.ShapeCasts S3136x1152
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  shapeCasts_S32x56x56x128_S32x56x7168 : S32x56x56x128.ShapeCasts S32x56x7168
  shapeCasts_S1x128_S1x1x1x128 : S1x128.ShapeCasts S1x1x1x128
  bcast_S1x1x1x128_S1x1x56x128_0_1_2_3 : S1x1x1x128.BroadcastsInDim S1x1x56x128 (![0, 1, 2, 3] : Fin 4 → Fin S1x1x56x128.rank)
  shapeCasts_S1x1x56x128_S1x7168 : S1x1x56x128.ShapeCasts S1x7168
  inb_S1x56x7168_S1x56x7168_0_0_0 : ∀ a, (![0, 0, 0] : Fin 3 → Nat) a + S1x56x7168.size a ≤ S1x56x7168.size a
  h_S1x56x7168 : 0 < S1x56x7168.numel
  shapeCasts_S1x56x7168_S1x56x7168 : S1x56x7168.ShapeCasts S1x56x7168
  inb_S1x7168_S1x7168_0_0 : ∀ a, (![0, 0] : Fin 2 → Nat) a + S1x7168.size a ≤ S1x7168.size a
  h_S1x7168 : 0 < S1x7168.numel
  shapeCasts_S1x7168_S1x7168 : S1x7168.ShapeCasts S1x7168
  shapeCasts_S1x7168_S1x1x7168 : S1x7168.ShapeCasts S1x1x7168
  broadcasts_S1x1x7168_S1x56x7168 : S1x1x7168.Broadcasts S1x56x7168
  shapeCasts_S32x56x7168_S32x56x56x128 : S32x56x7168.ShapeCasts S32x56x56x128
  dot_S3136x576_S576x128_S3136x128_1_0_0_1_n_n_wf : DotDims.WF S3136x576 S576x128 S3136x128 [1] [0] [0] [1] [] []
  dot_S3136x1152_S1152x128_S3136x128_1_0_0_1_n_n_wf : DotDims.WF S3136x1152 S1152x128 S3136x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x64.size a ≤ S1x64.size a
  hwx0_0 : ∀ i : grid0.Coords, EltTy.bits .f32 = 32 ∨ (Rect.block (s := S1x64) S1x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x56x56x64.size a ≤ S32x56x56x64.size a
  hwx0_2 : ∀ i : grid0.Coords, EltTy.bits .f32 = 32 ∨ (Rect.block (s := S32x56x56x64) S1x56x56x64.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S576x128.size a ≤ S576x128.size a
  hwx0_3 : ∀ i : grid0.Coords, EltTy.bits .f32 = 32 ∨ (Rect.block (s := S576x128) S576x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x56x56x128.size a ≤ S32x56x56x128.size a
  hwx0_4 : ∀ i : grid0.Coords, EltTy.bits .f32 = 32 ∨ (Rect.block (s := S32x56x56x128) S1x56x56x128.size (cc0_transform_4 i) (hinb0_4 i)).WholeWords (EltTy.packing .f32)
  hstage0_5 : ∀ j, (stage0_5 j).IsWhole
  nbuf0_5 : grid0.bufCount reads0_5 false = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x128.size a ≤ S1x128.size a
  hwx1_0 : ∀ i : grid1.Coords, EltTy.bits .f32 = 32 ∨ (Rect.block (s := S1x128) S1x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x56x56x128.size a ≤ S32x56x56x128.size a
  hwx1_2 : ∀ i : grid1.Coords, EltTy.bits .f32 = 32 ∨ (Rect.block (s := S32x56x56x128) S1x56x56x128.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S1152x128.size a ≤ S1152x128.size a
  hwx1_3 : ∀ i : grid1.Coords, EltTy.bits .f32 = 32 ∨ (Rect.block (s := S1152x128) S1152x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x56x56x128.size a ≤ S32x56x56x128.size a
  hwx1_4 : ∀ i : grid1.Coords, EltTy.bits .f32 = 32 ∨ (Rect.block (s := S32x56x56x128) S1x56x56x128.size (cc1_transform_4 i) (hinb1_4 i)).WholeWords (EltTy.packing .f32)
  hstage1_5 : ∀ j, (stage1_5 j).IsWhole
  nbuf1_5 : grid1.bufCount reads1_5 false = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x7168.size a ≤ S1x7168.size a
  hwx2_0 : ∀ i : grid2.Coords, EltTy.bits .f32 = 32 ∨ (Rect.block (s := S1x7168) S1x7168.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x7168.size a ≤ S1x7168.size a
  hwx2_1 : ∀ i : grid2.Coords, EltTy.bits .f32 = 32 ∨ (Rect.block (s := S1x7168) S1x7168.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x56x7168.size a ≤ S32x56x7168.size a
  hwx2_2 : ∀ i : grid2.Coords, EltTy.bits .f32 = 32 ∨ (Rect.block (s := S32x56x7168) S1x56x7168.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x56x7168.size a ≤ S32x56x7168.size a
  hwx2_3 : ∀ i : grid2.Coords, EltTy.bits .f32 = 32 ∨ (Rect.block (s := S32x56x7168) S1x56x7168.size (cc2_transform_3 i) (hinb2_3 i)).WholeWords (EltTy.packing .f32)

variable [Facts₀]

def dot_S3136x576_S576x128_S3136x128_1_0_0_1_n_n : DotDims S3136x576 S576x128 S3136x128 where
  lhsContracting := [1]
  rhsContracting := [0]
  lhsNonContracting := [0]
  rhsNonContracting := [1]
  lhsBatch := []
  rhsBatch := []
  wf := dot_S3136x576_S576x128_S3136x128_1_0_0_1_n_n_wf
def dot_S3136x1152_S1152x128_S3136x128_1_0_0_1_n_n : DotDims S3136x1152 S1152x128 S3136x128 where
  lhsContracting := [1]
  rhsContracting := [0]
  lhsNonContracting := [0]
  rhsNonContracting := [1]
  lhsBatch := []
  rhsBatch := []
  wf := dot_S3136x1152_S1152x128_S3136x128_1_0_0_1_n_n_wf

abbrev win0_0 : Pipeline.Window sig grid0 :=
  Pipeline.Window.ofSpec (Memref.whole main_v2) S1x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x56x56x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S576x128.size cc0_transform_3 reads0_3 false false 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x56x56x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x128.size cc0_transform_5 reads0_5 true false 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S1x128.size cc0_transform_6 reads0_6 true false 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v17) S1x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4_0) S1x56x56x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1152x128.size cc1_transform_3 reads1_3 false false 1 stage1_3 sem1_3
    hrank1 hreads1_3 hinb1_3 nbuf1_3 (Memref.isWhole_whole _) hwx1_3 hstage1_3

abbrev win1_4 : Pipeline.Window sig grid1 :=
  Pipeline.Window.ofSpec (Memref.whole main_v21_0) S1x56x56x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21_1) S1x128.size cc1_transform_5 reads1_5 true false 1 stage1_5 sem1_5
    hrank1 hreads1_5 hinb1_5 nbuf1_5 (Memref.isWhole_whole _) hwx1_5 hstage1_5

abbrev win1_6 : Pipeline.Window sig grid1 :=
  Pipeline.Window.ofSpec (Memref.whole main_v21_2) S1x128.size cc1_transform_6 reads1_6 true false 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v41) S1x7168.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x7168.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x56x7168.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x56x7168.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== Proof.KI.R0Defs.lean ====
import proofs.«162787_g2000605952690631_pallasbulk_304_2_alg».proof.Proof.Gen.KernelIdeal.Launch
import proofs.«162787_g2000605952690631_pallasbulk_304_2_alg».proof.Proof.Gen.KernelIdeal.Skeleton
import proofs.«162787_g2000605952690631_pallasbulk_304_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0 (i : grid0.Coords) : Prop :=
  (Scalar.cmpi .ne (Scalar.extui (Scalar.cmpi .eq (BitVec.ofNat 32 (i 0).val) 0#32)) 0#32) = 1#1

-- The branch condition holds exactly at the first image of the batch: decided over all 32 grid points.
theorem hcond0 : ∀ t : Fin cfg0.N, cond0 (grid0.coords t) ↔ t.val = 0 :=
  (by decide +kernel : ∀ t : Fin grid0.N, cond0 (grid0.coords t) ↔ t.val = 0)

abbrev ms0_0 (t : Fin cfg0.N) : Memref sig .tc .vmem S1x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x56x56x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S576x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x56x56x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)

abbrev scM0 : Memref sig .tc .vmem S58x58x64 .bf16 := Memref.whole cc0_scratch0

abbrev VS0 : View sig .tc .vmem S58x58x64 .bf16 := scM0.view
abbrev VO0_4 : View sig .tc .vmem S1x56x56x128 .bf16 := (Memref.whole cc0_stg4_0 : Memref sig .tc .vmem S1x56x56x128 .bf16).view
abbrev VO0_5 : View sig .tc .vmem S1x128 .f32 := (Memref.whole cc0_stg5_0 : Memref sig .tc .vmem S1x128 .f32).view
abbrev VO0_6 : View sig .tc .vmem S1x128 .f32 := (Memref.whole cc0_stg6_0 : Memref sig .tc .vmem S1x128 .f32).view

abbrev others0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0
  rw [Pipeline.scopedRest_split_of_list spec0 c [cc0_scratch0] (by decide) (by decide)]
  simp only [bigSepL_singleton, scM0, owns_whole]
  rfl

end Cert.KernelIdeal.Hand

end
-- ==== Proof.KI.R0RunA.lean ====
import proofs.«162787_g2000605952690631_pallasbulk_304_2_alg».proof.Proof.KI.R0Defs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- With the branch taken the body leaves its inputs unchanged and each buffer it writes as the list of pieces stored, the last store first.
set_option maxHeartbeats 4000000 in
noncomputable def kernelRun0_A (c : Dev nD) (i : grid0.Coords) (arg1 : Memref sig .tc .vmem S1x64 .f32) (harg1 : arg1.IsWhole) (arg2 : Memref sig .tc .vmem S1x64 .f32) (harg2 : arg2.IsWhole) (arg3 : Memref sig .tc .vmem S1x56x56x64 .f32) (harg3 : arg3.IsWhole) (arg4 : Memref sig .tc .vmem S576x128 .bf16) (harg4 : arg4.IsWhole) (arg5 : Memref sig .tc .vmem S1x56x56x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S58x58x64 .bf16) (harg8 : arg8.IsWhole) (hc0 : cond0 i)
    (x0 : Vec F S1x64 .f32) (x1 : Vec F S1x64 .f32) (x2 : Vec F S1x56x56x64 .f32) (x3 : Vec F S576x128 .bf16) :
    Σ' (L4 : List (View.Piece (Elt F) S1x56x56x128 .bf16)) (L5 : List (View.Piece (Elt F) S1x128 .f32)) (L6 : List (View.Piece (Elt F) S1x128 .f32)), { LS : List (View.Piece (Elt F) S58x58x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS)) -∗ K ⟨⟩))
          ⊢ wp frame (wpE (defs₀ (F := F)) Variants.none c none) E (cc0__conv_bn_stats_kernel i arg1 harg1 arg2 harg2 arg3 harg3 arg4 harg4 arg5 harg5 arg6 harg6 arg7 harg7 arg8 harg8) K } := by
  refine ⟨?_, ?_, ?_, ?_, fun E K => ?run⟩
  case run =>
    simp only [cc0__conv_bn_stats_kernel_eq_skeleton]; unfold cc0__conv_bn_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds, %fs, -, HS⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact HS

end Cert.KernelIdeal.Hand

end
-- ==== Proof.KI.R0RunB.lean ====
import proofs.«162787_g2000605952690631_pallasbulk_304_2_alg».proof.Proof.KI.R0RunA

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- With the branch not taken the sums and the padded image start from given contents; the padded image is written over them, not replaced.
set_option maxHeartbeats 4000000 in
noncomputable def kernelRun0_B (c : Dev nD) (i : grid0.Coords) (arg1 : Memref sig .tc .vmem S1x64 .f32) (harg1 : arg1.IsWhole) (arg2 : Memref sig .tc .vmem S1x64 .f32) (harg2 : arg2.IsWhole) (arg3 : Memref sig .tc .vmem S1x56x56x64 .f32) (harg3 : arg3.IsWhole) (arg4 : Memref sig .tc .vmem S576x128 .bf16) (harg4 : arg4.IsWhole) (arg5 : Memref sig .tc .vmem S1x56x56x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S58x58x64 .bf16) (harg8 : arg8.IsWhole) (hc0 : ¬cond0 i)
    (x0 : Vec F S1x64 .f32) (x1 : Vec F S1x64 .f32) (x2 : Vec F S1x56x56x64 .f32) (x3 : Vec F S576x128 .bf16)
    (xo5 : Vec F S1x128 .f32) (xo6 : Vec F S1x128 .f32) (xs : Vec F S58x58x64 .bf16) :
    Σ' (L4 : List (View.Piece (Elt F) S1x56x56x128 .bf16)) (L5 : List (View.Piece (Elt F) S1x128 .f32)) (L6 : List (View.Piece (Elt F) S1x128 .f32)), { LS : List (View.Piece (Elt F) S58x58x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6 ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (arg8.view.loc (c : Thread nD τ) ↦[arg8.view.set]{fullShare} arg8.view.writes (Elt F) (harg8.unread xs) LS)) -∗ K ⟨⟩))
          ⊢ wp frame (wpE (defs₀ (F := F)) Variants.none c none) E (cc0__conv_bn_stats_kernel i arg1 harg1 arg2 harg2 arg3 harg3 arg4 harg4 arg5 harg5 arg6 harg6 arg7 harg7 arg8 harg8) K } := by
  refine ⟨?_, ?_, ?_, ?_, fun E K => ?run⟩
  case run =>
    simp only [cc0__conv_bn_stats_kernel_eq_skeleton]; unfold cc0__conv_bn_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs, %hfs, HS⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexact HS

end Cert.KernelIdeal.Hand

end
-- ==== Proof.KI.R0Frame.lean ====
import proofs.«162787_g2000605952690631_pallasbulk_304_2_alg».proof.Proof.KI.R0RunB

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev runA0 (c : Dev nD) (t : Fin cfg0.N) (hc : cond0 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) hc (iblk0 V c 0 t) (iblk0 V c 1 t) (iblk0 V c 2 t) (iblk0 V c 3 t)

abbrev runB0 (c : Dev nD) (t : Fin cfg0.N) (hc : ¬cond0 (grid0.coords t)) (xo5 : Vec F S1x128 .f32) (xo6 : Vec F S1x128 .f32) (xs : Vec F S58x58x64 .bf16) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) hc (iblk0 V c 0 t) (iblk0 V c 1 t) (iblk0 V c 2 t) (iblk0 V c 3 t) xo5 xo6 xs

def outA0 (c : Dev nD) (t : Fin cfg0.N) (hc : cond0 (grid0.coords t)) : Vec F S1x56x56x128 .bf16 × Vec F S1x128 .f32 × Vec F S1x128 .f32 × Vec F S58x58x64 .bf16 :=
  (VO0_4.read (Elt F) (VO0_4.writes (Elt F) VO0_4.junk (runA0 V c t hc).1),
   VO0_5.read (Elt F) (VO0_5.writes (Elt F) VO0_5.junk (runA0 V c t hc).2.1),
   VO0_6.read (Elt F) (VO0_6.writes (Elt F) VO0_6.junk (runA0 V c t hc).2.2.1),
   VS0.read (Elt F) (VS0.writes (Elt F) VS0.junk (runA0 V c t hc).2.2.2.1))

def outB0 (c : Dev nD) (t : Fin cfg0.N) (hc : ¬cond0 (grid0.coords t)) (xo5 : Vec F S1x128 .f32) (xo6 : Vec F S1x128 .f32) (xs : Vec F S58x58x64 .bf16) : Vec F S1x56x56x128 .bf16 × Vec F S1x128 .f32 × Vec F S1x128 .f32 × Vec F S58x58x64 .bf16 :=
  (VO0_4.read (Elt F) (VO0_4.writes (Elt F) VO0_4.junk (runB0 V c t hc xo5 xo6 xs).1),
   VO0_5.read (Elt F) (VO0_5.writes (Elt F) VO0_5.junk (runB0 V c t hc xo5 xo6 xs).2.1),
   VO0_6.read (Elt F) (VO0_6.writes (Elt F) VO0_6.junk (runB0 V c t hc xo5 xo6 xs).2.2.1),
   VS0.read (Elt F) (VS0.writes (Elt F) ((Memref.isWhole_whole _ : scM0.IsWhole).unread xs) (runB0 V c t hc xo5 xo6 xs).2.2.2.1))

-- What the outputs and the padded image hold after image n: the first image's result at 0, otherwise a later image's over what image n - 1 left.
def outsAt0 (c : Dev nD) : (n : ℕ) → n < cfg0.N → Vec F S1x56x56x128 .bf16 × Vec F S1x128 .f32 × Vec F S1x128 .f32 × Vec F S58x58x64 .bf16
  | 0, hn => outA0 V c ⟨0, hn⟩ ((hcond0 ⟨0, hn⟩).mpr rfl)
  | n + 1, hn => outB0 V c ⟨n + 1, hn⟩ (fun h => Nat.succ_ne_zero n ((hcond0 ⟨n + 1, hn⟩).mp h))
      (outsAt0 c n (Nat.lt_of_succ_lt hn)).2.1 (outsAt0 c n (Nat.lt_of_succ_lt hn)).2.2.1 (outsAt0 c n (Nat.lt_of_succ_lt hn)).2.2.2

theorem outsAt0_A (c : Dev nD) (t : Fin cfg0.N) (h0 : t.val = 0) :
    outsAt0 V c t.val t.isLt = outA0 V c t ((hcond0 t).mpr h0) := by
  obtain ⟨n, hn⟩ := t
  cases n with
  | zero => rfl
  | succ n => exact absurd h0 (Nat.succ_ne_zero n)

theorem outsAt0_B (c : Dev nD) (t : Fin cfg0.N) (h0 : t.val ≠ 0) :
    outsAt0 V c t.val t.isLt = outB0 V c t (fun h => h0 ((hcond0 t).mp h))
      (outsAt0 V c (t.val - 1) (Nat.lt_of_le_of_lt (Nat.sub_le _ _) t.isLt)).2.1
      (outsAt0 V c (t.val - 1) (Nat.lt_of_le_of_lt (Nat.sub_le _ _) t.isLt)).2.2.1
      (outsAt0 V c (t.val - 1) (Nat.lt_of_le_of_lt (Nat.sub_le _ _) t.isLt)).2.2.2 := by
  obtain ⟨n, hn⟩ := t
  cases n with
  | zero => exact absurd rfl h0
  | succ n => rfl

def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2.2.2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2.2.2) ∗ others0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = (outsAt0 V c t.val t.isLt).1 := by dsimp only [dat0]

theorem after0_5 (c : Dev nD) (t : Fin cfg0.N) : (dat0 V c).after 5 t = (outsAt0 V c t.val t.isLt).2.1 := by dsimp only [dat0]

theorem after0_6 (c : Dev nD) (t : Fin cfg0.N) : (dat0 V c).after 6 t = (outsAt0 V c t.val t.isLt).2.2.1 := by dsimp only [dat0]

-- The body never writes an input, so before every image its buffer holds that image's block of the array.
theorem inputs0 (c : Dev nD) (t : Fin cfg0.N) :
    (∀ d, (dat0 V c).before 0 t d = iblk0 V c 0 t) ∧ (∀ d, (dat0 V c).before 1 t d = iblk0 V c 1 t)
      ∧ (∀ d, (dat0 V c).before 2 t d = iblk0 V c 2 t) ∧ (∀ d, (dat0 V c).before 3 t d = iblk0 V c 3 t) := by
  refine ⟨fun d => ?_, fun d => ?_, fun d => ?_, fun d => ?_⟩ <;>
    exact ((dat0 V c).before_in_eq_fetched _ rfl (fun _ => rfl) (fun _ _ _ => rfl) (fun _ => rfl) t d).trans rfl

-- Image t starts from the running sums image t - 1 left.
theorem before0_5_B (c : Dev nD) (t : Fin cfg0.N) (h0 : t.val ≠ 0) (d) :
    (dat0 V c).before 5 t d = (outsAt0 V c (t.val - 1) (Nat.lt_of_le_of_lt (Nat.sub_le _ _) t.isLt)).2.1 := by
  have hN : t.val < 32 := lt_of_lt_of_eq t.isLt (show cfg0.N = 32 from N_0)
  rw [Dat.before_out_kept _ 5 rfl t h0 (Bool.eq_false_iff.mpr fun h => by have := (flush0_5 _).mp h; dsimp only at this; omega)
    (fun _ => rfl) (fun _ _ => rfl)]
  dsimp only [dat0]

theorem before0_6_B (c : Dev nD) (t : Fin cfg0.N) (h0 : t.val ≠ 0) (d) :
    (dat0 V c).before 6 t d = (outsAt0 V c (t.val - 1) (Nat.lt_of_le_of_lt (Nat.sub_le _ _) t.isLt)).2.2.1 := by
  have hN : t.val < 32 := lt_of_lt_of_eq t.isLt (show cfg0.N = 32 from N_0)
  rw [Dat.before_out_kept _ 6 rfl t h0 (Bool.eq_false_iff.mpr fun h => by have := (flush0_6 _).mp h; dsimp only at this; omega)
    (fun _ => rfl) (fun _ _ => rfl)]
  dsimp only [dat0]

-- By cases on "first image": run that case's body; each output then holds the pieces its stores wrote, and those pieces tile it.
set_option maxHeartbeats 4800000 in
theorem sound_body0 (c : Dev nD) (t : Fin cfg0.N) :
    iprop(PhiS0 V c t.val (Nat.le_of_lt t.isLt) ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d))
      ∗ (∃ d, owns (c : Thread nD τ) (ms0_4 t) fullShare ((dat0 V c).before 4 t d))
      ∗ (∃ d, owns (c : Thread nD τ) (ms0_5 t) fullShare ((dat0 V c).before 5 t d))
      ∗ (∃ d, owns (c : Thread nD τ) (ms0_6 t) fullShare ((dat0 V c).before 6 t d)))
      ⊢ wp frame (wpE (defs₀ (F := F)) Variants.none c none) Set.univ (bodyAt0 t) fun _ =>
        iprop(iprop(iprop(owns (c : Thread nD τ) scM0 fullShare (outsAt0 V c t.val t.isLt).2.2.2 ∗ others0 c) ∗ (∃ r, prngReg c r))
          ∗ (dat0 V c).owesAt () t.castSucc
          ∗ owns (c : Thread nD τ) (ms0_0 t) fullShare (iblk0 V c 0 t)
          ∗ owns (c : Thread nD τ) (ms0_1 t) fullShare (iblk0 V c 1 t)
          ∗ owns (c : Thread nD τ) (ms0_2 t) fullShare (iblk0 V c 2 t)
          ∗ owns (c : Thread nD τ) (ms0_3 t) fullShare (iblk0 V c 3 t)
          ∗ owns (c : Thread nD τ) (ms0_4 t) fullShare (outsAt0 V c t.val t.isLt).1
          ∗ owns (c : Thread nD τ) (ms0_5 t) fullShare (outsAt0 V c t.val t.isLt).2.1
          ∗ owns (c : Thread nD τ) (ms0_6 t) fullShare (outsAt0 V c t.val t.isLt).2.2.1) := by
  unfold bodyAt0
  simp only [inputs0 V c t]
  by_cases h0 : t.val = 0
  · rw [outsAt0_A V c t h0]
    unfold outA0; dsimp only
    rw [PhiS0_zero V c _ _ h0, PhiA0_eq]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((runA0 V c t ((hcond0 t).mpr h0)).2.2.2.2 Set.univ _)
    iframe H0 H1 H2 H3 HS
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩, ⟨%es, HS⟩⟩
    ihave H4 := (Ring.owns_of_writes_tiledL VO0_4 S1x56x56x128.size) $$ H4 %(by sl_kernel_rfl)
    ihave H5 := (Ring.owns_of_writes_tiledL VO0_5 S1x128.size) $$ H5 %(by sl_kernel_rfl)
    ihave H6 := (Ring.owns_of_writes_tiledL VO0_6 S1x128.size) $$ H6 %(by sl_kernel_rfl)
    ihave HS := (Ring.owns_of_writes_tiledL VS0 S58x58x64.size) $$ HS %(by sl_kernel_rfl)
    iframe
  · rw [outsAt0_B V c t h0]
    unfold outB0; dsimp only
    simp only [before0_5_B V c t h0, before0_6_B V c t h0]
    rw [PhiS0_pos V c _ _ h0]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((runB0 V c t (fun h => h0 ((hcond0 t).mp h)) _ _ _).2.2.2.2 Set.univ _)
    iframe H0 H1 H2 H3 H5 H6 HS
    isplitl [H4]; · iexists _; iexact H4
    iintro ⟨H0, H1, H2, H3, ⟨%e4, H4⟩, ⟨%e5, H5⟩, ⟨%e6, H6⟩, HS⟩
    ihave H4 := (Ring.owns_of_writes_tiledL VO0_4 S1x56x56x128.size) $$ H4 %(by sl_kernel_rfl)
    ihave H5 := (Ring.owns_of_writes_tiledL VO0_5 S1x128.size) $$ H5 %(by sl_kernel_rfl)
    ihave H6 := (Ring.owns_of_writes_tiledL VO0_6 S1x128.size) $$ H6 %(by sl_kernel_rfl)
    ihave HS := (owns_intro _ scM0 _ _) $$ HS
    iframe

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := Entails.refl _

-- After the last image the contents of the padded image are forgotten.
theorem hout0 (c : Dev nD) : (dat0 V c).Φ (Fin.last cfg0.N) ⊢ Pipeline.ΦA spec0 c := by
  have hN : cfg0.N = 32 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨⟨HS, Hoth⟩, Hg⟩
  isplitl [HS Hoth]
  · isplitl [HS]
    · iexists _; iexact HS
    iexact Hoth
  iexact Hg

end Region0

end Cert.KernelIdeal.Hand

end
-- ==== Proof.KI.R1Runs.lean ====
import proofs.«162787_g2000605952690631_pallasbulk_304_2_alg».proof.Proof.Gen.KernelIdeal.Launch
import proofs.«162787_g2000605952690631_pallasbulk_304_2_alg».proof.Proof.Gen.KernelIdeal.Skeleton
import proofs.«162787_g2000605952690631_pallasbulk_304_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1 (i : grid1.Coords) : Prop :=
  (Scalar.cmpi .ne (Scalar.extui (Scalar.cmpi .eq (BitVec.ofNat 32 (i 0).val) 0#32)) 0#32) = 1#1

-- The branch condition holds exactly at the first image of the batch: decided over all 32 grid points.
theorem hcond1 : ∀ t : Fin cfg1.N, cond1 (grid1.coords t) ↔ t.val = 0 :=
  (by decide +kernel : ∀ t : Fin grid1.N, cond1 (grid1.coords t) ↔ t.val = 0)

abbrev ms1_0 (t : Fin cfg1.N) : Memref sig .tc .vmem S1x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x56x56x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1152x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x56x56x128 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)

abbrev scM1 : Memref sig .tc .vmem S58x58x128 .bf16 := Memref.whole cc1_scratch0

abbrev VS1 : View sig .tc .vmem S58x58x128 .bf16 := scM1.view
abbrev VO1_4 : View sig .tc .vmem S1x56x56x128 .bf16 := (Memref.whole cc1_stg4_0 : Memref sig .tc .vmem S1x56x56x128 .bf16).view
abbrev VO1_5 : View sig .tc .vmem S1x128 .f32 := (Memref.whole cc1_stg5_0 : Memref sig .tc .vmem S1x128 .f32).view
abbrev VO1_6 : View sig .tc .vmem S1x128 .f32 := (Memref.whole cc1_stg6_0 : Memref sig .tc .vmem S1x128 .f32).view

abbrev others1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA others1
  rw [Pipeline.scopedRest_split_of_list spec1 c [cc1_scratch0] (by decide) (by decide)]
  simp only [bigSepL_singleton, scM1, owns_whole]
  rfl

-- With the branch taken the body leaves its inputs unchanged and each buffer it writes as the list of pieces stored, the last store first.
set_option maxHeartbeats 4000000 in
noncomputable def kernelRun1_A (c : Dev nD) (i : grid1.Coords) (arg1 : Memref sig .tc .vmem S1x128 .f32) (harg1 : arg1.IsWhole) (arg2 : Memref sig .tc .vmem S1x128 .f32) (harg2 : arg2.IsWhole) (arg3 : Memref sig .tc .vmem S1x56x56x128 .bf16) (harg3 : arg3.IsWhole) (arg4 : Memref sig .tc .vmem S1152x128 .bf16) (harg4 : arg4.IsWhole) (arg5 : Memref sig .tc .vmem S1x56x56x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S58x58x128 .bf16) (harg8 : arg8.IsWhole) (hc1 : cond1 i)
    (x0 : Vec F S1x128 .f32) (x1 : Vec F S1x128 .f32) (x2 : Vec F S1x56x56x128 .bf16) (x3 : Vec F S1152x128 .bf16) :
    Σ' (L4 : List (View.Piece (Elt F) S1x56x56x128 .bf16)) (L5 : List (View.Piece (Elt F) S1x128 .f32)) (L6 : List (View.Piece (Elt F) S1x128 .f32)), { LS : List (View.Piece (Elt F) S58x58x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS)) -∗ K ⟨⟩))
          ⊢ wp frame (wpE (defs₀ (F := F)) Variants.none c none) E (cc1__conv_bn_stats_kernel i arg1 harg1 arg2 harg2 arg3 harg3 arg4 harg4 arg5 harg5 arg6 harg6 arg7 harg7 arg8 harg8) K } := by
  refine ⟨?_, ?_, ?_, ?_, fun E K => ?run⟩
  case run =>
    simp only [cc1__conv_bn_stats_kernel_eq_skeleton]; unfold cc1__conv_bn_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds, %fs, -, HS⟩, Hk⟩
    obtain rfl := harg1.eq_unread hf0; obtain rfl := harg2.eq_unread hf1; obtain rfl := harg3.eq_unread hf2; obtain rfl := harg4.eq_unread hf3
    sl_exec (disch := first | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact HS

-- With the branch not taken the sums and the padded image start from given contents; the padded image is written over them, not replaced.
set_option maxHeartbeats 4000000 in
noncomputable def kernelRun1_B (c : Dev nD) (i : grid1.Coords) (arg1 : Memref sig .tc .vmem S1x128 .f32) (harg1 : arg1.IsWhole) (arg2 : Memref sig .tc .vmem S1x128 .f32) (harg2 : arg2.IsWhole) (arg3 : Memref sig .tc .vmem S1x56x56x128 .bf16) (harg3 : arg3.IsWhole) (arg4 : Memref sig .tc .vmem S1152x128 .bf16) (harg4 : arg4.IsWhole) (arg5 : Memref sig .tc .vmem S1x56x56x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S58x58x128 .bf16) (harg8 : arg8.IsWhole) (hc1 : ¬cond1 i)
    (x0 : Vec F S1x128 .f32) (x1 : Vec F S1x128 .f32) (x2 : Vec F S1x56x56x128 .bf16) (x3 : Vec F S1152x128 .bf16)
    (xo5 : Vec F S1x128 .f32) (xo6 : Vec F S1x128 .f32) (xs : Vec F S58x58x128 .bf16) :
    Σ' (L4 : List (View.Piece (Elt F) S1x56x56x128 .bf16)) (L5 : List (View.Piece (Elt F) S1x128 .f32)) (L6 : List (View.Piece (Elt F) S1x128 .f32)), { LS : List (View.Piece (Elt F) S58x58x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6 ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ arg8.view.loc (c : Thread nD τ) ↦[arg8.view.set]{fullShare} arg8.view.writes (Elt F) (harg8.unread xs) LS) -∗ K ⟨⟩))
          ⊢ wp frame (wpE (defs₀ (F := F)) Variants.none c none) E (cc1__conv_bn_stats_kernel i arg1 harg1 arg2 harg2 arg3 harg3 arg4 harg4 arg5 harg5 arg6 harg6 arg7 harg7 arg8 harg8) K } := by
  refine ⟨?_, ?_, ?_, ?_, fun E K => ?run⟩
  case run =>
    simp only [cc1__conv_bn_stats_kernel_eq_skeleton]; unfold cc1__conv_bn_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs, %hfs, HS⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs
    sl_exec (disch := first | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexact HS

end Cert.KernelIdeal.Hand

end
-- ==== Proof.KI.R1Frame.lean ====
import proofs.«162787_g2000605952690631_pallasbulk_304_2_alg».proof.Proof.KI.R1Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev runA1 (c : Dev nD) (t : Fin cfg1.N) (hc : cond1 (grid1.coords t)) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc (iblk1 V c 0 t) (iblk1 V c 1 t) (iblk1 V c 2 t) (iblk1 V c 3 t)

abbrev runB1 (c : Dev nD) (t : Fin cfg1.N) (hc : ¬cond1 (grid1.coords t)) (xo5 : Vec F S1x128 .f32) (xo6 : Vec F S1x128 .f32) (xs : Vec F S58x58x128 .bf16) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc (iblk1 V c 0 t) (iblk1 V c 1 t) (iblk1 V c 2 t) (iblk1 V c 3 t) xo5 xo6 xs

def outA1 (c : Dev nD) (t : Fin cfg1.N) (hc : cond1 (grid1.coords t)) : Vec F S1x56x56x128 .bf16 × Vec F S1x128 .f32 × Vec F S1x128 .f32 × Vec F S58x58x128 .bf16 :=
  (VO1_4.read (Elt F) (VO1_4.writes (Elt F) VO1_4.junk (runA1 V c t hc).1),
   VO1_5.read (Elt F) (VO1_5.writes (Elt F) VO1_5.junk (runA1 V c t hc).2.1),
   VO1_6.read (Elt F) (VO1_6.writes (Elt F) VO1_6.junk (runA1 V c t hc).2.2.1),
   VS1.read (Elt F) (VS1.writes (Elt F) VS1.junk (runA1 V c t hc).2.2.2.1))

def outB1 (c : Dev nD) (t : Fin cfg1.N) (hc : ¬cond1 (grid1.coords t)) (xo5 : Vec F S1x128 .f32) (xo6 : Vec F S1x128 .f32) (xs : Vec F S58x58x128 .bf16) : Vec F S1x56x56x128 .bf16 × Vec F S1x128 .f32 × Vec F S1x128 .f32 × Vec F S58x58x128 .bf16 :=
  (VO1_4.read (Elt F) (VO1_4.writes (Elt F) VO1_4.junk (runB1 V c t hc xo5 xo6 xs).1),
   VO1_5.read (Elt F) (VO1_5.writes (Elt F) VO1_5.junk (runB1 V c t hc xo5 xo6 xs).2.1),
   VO1_6.read (Elt F) (VO1_6.writes (Elt F) VO1_6.junk (runB1 V c t hc xo5 xo6 xs).2.2.1),
   VS1.read (Elt F) (VS1.writes (Elt F) ((Memref.isWhole_whole _ : scM1.IsWhole).unread xs) (runB1 V c t hc xo5 xo6 xs).2.2.2.1))

-- What the outputs and the padded image hold after image n: the first image's result at 0, otherwise a later image's over what image n - 1 left.
def outsAt1 (c : Dev nD) : (n : ℕ) → n < cfg1.N → Vec F S1x56x56x128 .bf16 × Vec F S1x128 .f32 × Vec F S1x128 .f32 × Vec F S58x58x128 .bf16
  | 0, hn => outA1 V c ⟨0, hn⟩ ((hcond1 ⟨0, hn⟩).mpr rfl)
  | n + 1, hn => outB1 V c ⟨n + 1, hn⟩ (fun h => Nat.succ_ne_zero n ((hcond1 ⟨n + 1, hn⟩).mp h))
      (outsAt1 c n (Nat.lt_of_succ_lt hn)).2.1 (outsAt1 c n (Nat.lt_of_succ_lt hn)).2.2.1 (outsAt1 c n (Nat.lt_of_succ_lt hn)).2.2.2

theorem outsAt1_A (c : Dev nD) (t : Fin cfg1.N) (h0 : t.val = 0) :
    outsAt1 V c t.val t.isLt = outA1 V c t ((hcond1 t).mpr h0) := by
  obtain ⟨n, hn⟩ := t
  cases n with
  | zero => rfl
  | succ n => exact absurd h0 (Nat.succ_ne_zero n)

theorem outsAt1_B (c : Dev nD) (t : Fin cfg1.N) (h0 : t.val ≠ 0) :
    outsAt1 V c t.val t.isLt = outB1 V c t (fun h => h0 ((hcond1 t).mp h))
      (outsAt1 V c (t.val - 1) (Nat.lt_of_le_of_lt (Nat.sub_le _ _) t.isLt)).2.1
      (outsAt1 V c (t.val - 1) (Nat.lt_of_le_of_lt (Nat.sub_le _ _) t.isLt)).2.2.1
      (outsAt1 V c (t.val - 1) (Nat.lt_of_le_of_lt (Nat.sub_le _ _) t.isLt)).2.2.2 := by
  obtain ⟨n, hn⟩ := t
  cases n with
  | zero => exact absurd rfl h0
  | succ n => rfl

def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2.2.2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2.2.2) ∗ others1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

theorem after1_4 (c : Dev nD) (t : Fin cfg1.N) : (dat1 V c).after 4 t = (outsAt1 V c t.val t.isLt).1 := by dsimp only [dat1]

theorem after1_5 (c : Dev nD) (t : Fin cfg1.N) : (dat1 V c).after 5 t = (outsAt1 V c t.val t.isLt).2.1 := by dsimp only [dat1]

theorem after1_6 (c : Dev nD) (t : Fin cfg1.N) : (dat1 V c).after 6 t = (outsAt1 V c t.val t.isLt).2.2.1 := by dsimp only [dat1]

-- The body never writes an input, so before every image its buffer holds that image's block of the array.
theorem inputs1 (c : Dev nD) (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) ∧ (∀ d, (dat1 V c).before 3 t d = iblk1 V c 3 t) := by
  refine ⟨fun d => ?_, fun d => ?_, fun d => ?_, fun d => ?_⟩ <;>
    exact ((dat1 V c).before_in_eq_fetched _ rfl (fun _ => rfl) (fun _ _ _ => rfl) (fun _ => rfl) t d).trans rfl

-- Image t starts from the running sums image t - 1 left.
theorem before1_5_B (c : Dev nD) (t : Fin cfg1.N) (h0 : t.val ≠ 0) (d) :
    (dat1 V c).before 5 t d = (outsAt1 V c (t.val - 1) (Nat.lt_of_le_of_lt (Nat.sub_le _ _) t.isLt)).2.1 := by
  have hN : t.val < 32 := lt_of_lt_of_eq t.isLt (show cfg1.N = 32 from N_1)
  rw [Dat.before_out_kept _ 5 rfl t h0 (Bool.eq_false_iff.mpr fun h => by have := (flush1_5 _).mp h; dsimp only at this; omega)
    (fun _ => rfl) (fun _ _ => rfl)]
  dsimp only [dat1]

theorem before1_6_B (c : Dev nD) (t : Fin cfg1.N) (h0 : t.val ≠ 0) (d) :
    (dat1 V c).before 6 t d = (outsAt1 V c (t.val - 1) (Nat.lt_of_le_of_lt (Nat.sub_le _ _) t.isLt)).2.2.1 := by
  have hN : t.val < 32 := lt_of_lt_of_eq t.isLt (show cfg1.N = 32 from N_1)
  rw [Dat.before_out_kept _ 6 rfl t h0 (Bool.eq_false_iff.mpr fun h => by have := (flush1_6 _).mp h; dsimp only at this; omega)
    (fun _ => rfl) (fun _ _ => rfl)]
  dsimp only [dat1]

-- By cases on "first image": run that case's body; each output then holds the pieces its stores wrote, and those pieces tile it.
set_option maxHeartbeats 4800000 in
theorem sound_body1 (c : Dev nD) (t : Fin cfg1.N) :
    iprop(PhiS1 V c t.val (Nat.le_of_lt t.isLt) ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d))
      ∗ (∃ d, owns (c : Thread nD τ) (ms1_4 t) fullShare ((dat1 V c).before 4 t d))
      ∗ (∃ d, owns (c : Thread nD τ) (ms1_5 t) fullShare ((dat1 V c).before 5 t d))
      ∗ (∃ d, owns (c : Thread nD τ) (ms1_6 t) fullShare ((dat1 V c).before 6 t d)))
      ⊢ wp frame (wpE (defs₀ (F := F)) Variants.none c none) Set.univ (bodyAt1 t) fun _ =>
        iprop(iprop(iprop(owns (c : Thread nD τ) scM1 fullShare (outsAt1 V c t.val t.isLt).2.2.2 ∗ others1 c) ∗ (∃ r, prngReg c r))
          ∗ (dat1 V c).owesAt () t.castSucc
          ∗ owns (c : Thread nD τ) (ms1_0 t) fullShare (iblk1 V c 0 t)
          ∗ owns (c : Thread nD τ) (ms1_1 t) fullShare (iblk1 V c 1 t)
          ∗ owns (c : Thread nD τ) (ms1_2 t) fullShare (iblk1 V c 2 t)
          ∗ owns (c : Thread nD τ) (ms1_3 t) fullShare (iblk1 V c 3 t)
          ∗ owns (c : Thread nD τ) (ms1_4 t) fullShare (outsAt1 V c t.val t.isLt).1
          ∗ owns (c : Thread nD τ) (ms1_5 t) fullShare (outsAt1 V c t.val t.isLt).2.1
          ∗ owns (c : Thread nD τ) (ms1_6 t) fullShare (outsAt1 V c t.val t.isLt).2.2.1) := by
  unfold bodyAt1
  simp only [inputs1 V c t]
  by_cases h0 : t.val = 0
  · rw [outsAt1_A V c t h0]
    unfold outA1; dsimp only
    rw [PhiS1_zero V c _ _ h0, PhiA1_eq]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((runA1 V c t ((hcond1 t).mpr h0)).2.2.2.2 Set.univ _)
    iframe H0 H1 H2 H3 HS
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩, ⟨%es, HS⟩⟩
    ihave H4 := (Ring.owns_of_writes_tiledL VO1_4 S1x56x56x128.size) $$ H4 %(by sl_kernel_rfl)
    ihave H5 := (Ring.owns_of_writes_tiledL VO1_5 S1x128.size) $$ H5 %(by sl_kernel_rfl)
    ihave H6 := (Ring.owns_of_writes_tiledL VO1_6 S1x128.size) $$ H6 %(by sl_kernel_rfl)
    ihave HS := (Ring.owns_of_writes_tiledL VS1 S58x58x128.size) $$ HS %(by sl_kernel_rfl)
    iframe
  · rw [outsAt1_B V c t h0]
    unfold outB1; dsimp only
    simp only [before1_5_B V c t h0, before1_6_B V c t h0]
    rw [PhiS1_pos V c _ _ h0]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((runB1 V c t (fun h => h0 ((hcond1 t).mp h)) _ _ _).2.2.2.2 Set.univ _)
    iframe H0 H1 H2 H3 H5 H6 HS
    isplitl [H4]; · iexists _; iexact H4
    iintro ⟨H0, H1, H2, H3, ⟨%e4, H4⟩, ⟨%e5, H5⟩, ⟨%e6, H6⟩, HS⟩
    ihave H4 := (Ring.owns_of_writes_tiledL VO1_4 S1x56x56x128.size) $$ H4 %(by sl_kernel_rfl)
    ihave H5 := (Ring.owns_of_writes_tiledL VO1_5 S1x128.size) $$ H5 %(by sl_kernel_rfl)
    ihave H6 := (Ring.owns_of_writes_tiledL VO1_6 S1x128.size) $$ H6 %(by sl_kernel_rfl)
    ihave HS := (owns_intro _ scM1 _ _) $$ HS
    iframe

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Entails.refl _

-- After the last image the contents of the padded image are forgotten.
theorem hout1 (c : Dev nD) : (dat1 V c).Φ (Fin.last cfg1.N) ⊢ Pipeline.ΦA spec1 c := by
  have hN : cfg1.N = 32 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HS, Hoth⟩, Hg⟩
  isplitl [HS Hoth]
  · isplitl [HS]
    · iexists _; iexact HS
    iexact Hoth
  iexact Hg

end Region1

end Cert.KernelIdeal.Hand

end
-- ==== Proof.KI.R2.lean ====
import proofs.«162787_g2000605952690631_pallasbulk_304_2_alg».proof.Proof.Gen.KernelIdeal.Launch
import proofs.«162787_g2000605952690631_pallasbulk_304_2_alg».proof.Proof.Gen.KernelIdeal.Skeleton
import proofs.«162787_g2000605952690631_pallasbulk_304_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_blk : Rect S4x56x7168 := Rect.unit (s := S4x56x7168) ![0, 0, 0] S4x56x7168.size inb_S4x56x7168_S4x56x7168_0_0_0
abbrev r2_row : Rect S1x7168 := Rect.unit (s := S1x7168) ![0, 0] S1x7168.size inb_S1x7168_S1x7168_0_0

def out2_3 (x0 : Vec F S1x7168 .f32) (x1 : Vec F S1x7168 .f32) (x2 : Vec F S4x56x7168 .bf16) : Vec F S4x56x7168 .f32 :=
  View.canon [⟨r2_blk, k2_pay1 (View.ld x2 r2_blk) (View.ld x0 r2_row) (View.ld x1 r2_row)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

-- The body returns each input block unchanged, so what it is given at any point is the array's block there.
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

-- One store covers the whole output block.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).Φ t.succ = (dat2 V c).Φ t.castSucc from rfl,
    show (dat2 V c).owesAt () t.succ = (dat2 V c).owesAt () t.castSucc from rfl]
  simp only [before2_0, before2_1, before2_2, after2_0, after2_1, after2_2, after2_3, cc2__bn_relu_kernel_eq_skeleton]
  generalize iblk2 V c 0 t = x0, iblk2 V c 1 t = x1, iblk2 V c 2 t = x2
  unfold cc2__bn_relu_kernel_skel owns
  iintro ⟨HΦ, Ho, ⟨%d0, %f0, %hf0, H0⟩, ⟨%d1, %f1, %hf1, H1⟩, ⟨%d2, %f2, %hf2, H2⟩, ⟨%d3, %f3, -, H3⟩⟩
  subst hf0; subst hf1; subst hf2
  sl_exec
  sl_step
  isplitl [HΦ]; · iexact HΦ
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  iexists _; isplitr
  swap; · iexact H3
  ipureintro
  exact View.read_writes_eq_canon _ _ _ (View.cover_of_tiled _ S4x56x7168.size (by rfl))

theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.LibSeg.lean ====
import Idealize.ShloMosaic.Lib.Pipeline.Frame
import Idealize.ShloMosaic.Lib.Pipeline.Regions
import Idealize.ShloMosaic.Lib.Pipeline.RegionsLoop

noncomputable section

namespace Cert.LibSeg

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {nD : Nat} {τ : Topo} {sig : RefSig} {Λ₀ : Labels} {P : Type} [Fintype P] [DecidableEq P] {F : FTy → Type} [FloatOps F]

local notation "𝕄" => MT nD τ sig Unit (Elt F) ℕ (UR sig nD τ) ℕ

abbrev pc (cfgs : P → Pipeline.Cfg sig Λ₀) : P → Pipeline.PCfg sig Λ₀ (Elt F) := fun p => (cfgs p).toPCfg
abbrev ad (cfgs : P → Pipeline.Cfg sig Λ₀) : (p : P) → (pc (F := F) cfgs p).Adm := fun p => (cfgs p).toPCfg_adm
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

variable (cfgs : P → Pipeline.Cfg sig Λ₀)
  (pdats : (p : P) → (c : Dev nD) → Dat τ (Elt F) Unit ℕ (UR sig nD τ) ℕ (Pipeline.pin (pc (F := F) cfgs) (ad cfgs) p) c)
  (defs₀ : Defs nD τ sig (Elt F) Λ₀)

/-- A stretch of host operations as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pc (F := F) cfgs) defs₀ .none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

variable {cfgs}

set_option backward.isDefEq.respectTransparency.types false in
/-- A region as a segment: its arrays leave the buffers held at `Wi` on entry and rejoin them at `Wo` on exit. -/
def reg (p : P) (la : Pipeline.LaunchFacts (nD := nD) (τ := τ) cfgs p) (Wi Wo : Dev nD → Valuation τ sig (Elt F))
    (hb : ∀ c, BodyObligation (pdats p c) defs₀ .none () Set.univ)
    (hd : ∀ c, (∀ w, (pdats p c).q w = fullShare) ∧ (∀ t, (pdats p c).owed t = 0) ∧ (∀ t, (pdats p c).recorded t = Set.univ)
      ∧ ∀ w, (pdats p c).A w = Wi c (Proc.devRef .tc (Pipeline.arrRef (cfgs p).spec w)))
    (hx : ∀ c, Pipeline.ΦA (cfgs p).spec c ⊢ (pdats p c).Φ 0)
    (hy : ∀ c, (pdats p c).Φ (Fin.last (cfgs p).N) ⊢ Pipeline.ΦA (cfgs p).spec c)
    (hF : ∀ c w, Wo c (Proc.devRef .tc (Pipeline.arrRef (cfgs p).spec w)) = (pdats p c).arrAt w (cfgs p).N)
    (hr : ∀ c b, (∀ w, Pipeline.arrRef (cfgs p).spec w ≠ b) → Wo c (Proc.devRef .tc b) = Wi c (Proc.devRef .tc b)) :
    Pipeline.RegionSeg (pc (F := F) cfgs) (ad cfgs) pdats () defs₀ .none L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p fun c => (hd c).2.1
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (cfgs p).spec c fun b => Wi c b
  hentry c := by
    rw [Pipeline.ownSems0_none]
    have hsplit := Pipeline.arrays_of_unscopedBufs (p := p) (pc (F := F) cfgs) (ad cfgs) pdats la.win la.arr_whole c
      ((pdats p c).share_full (hd c).1) (fun b => Wi c b) (hd c).2.2.2
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [(hd c).2.1]
      icases HO with ⟨%W, HO⟩; iexists W; isplitr; · ipureintro; exact fun _ _ => Or.inl ((hd c).2.2.1 0 ▸ Set.mem_univ _)
      iexact HO
    isplitl [Hp]; · iexact Hp
    iexact Hrest
  hin c := by
    refine .trans ?_ (hx c)
    unfold Pipeline.ΦA
    iintro ⟨Hp, -, Hr⟩
    isplitl [Hr]; · iexact Hr
    iexact Hp
  hout c := by
    rw [Pipeline.ownSems0_none]
    refine (hy c).trans ?_
    unfold Pipeline.ΦA
    iintro ⟨Hr, Hp⟩
    isplitl [Hp]; · iexact Hp
    isplitr; · iempintro
    iexact Hr
  hexit c := by
    have hjoin := Pipeline.unscopedBufs_of_arrays (p := p) (pc (F := F) cfgs) (ad cfgs)
      la.win la.arr_whole c pdats ((pdats p c).share_full (hd c).1)
      (fun b => Wi c b) (fun b => Wo c b) ((pdats p c).arrAt · (cfgs p).N) (fun w => (hF c w).symm)
      fun b hb => hr c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(hd c).2.1]
    icases HO with ⟨%W, -, HO⟩; iexists W; iexact HO

set_option backward.isDefEq.respectTransparency.types false in
/-- A run of segments chaining from the launch contents to `Wn` ends, on every weakly fair execution, with every unscoped buffer at `Wn`. -/
theorem run_held (hinj : Function.Injective (Pipeline.cellOf (nD := nD) (τ := τ) cfgs)) (m : (ℓ : Loc nD τ sig) → Buf (Elt F) ℓ) (ρ : Dev nD → PrngReg)
    (main : Dev nD → Prog (TpuEff nD τ sig (Elt F) (Pipeline.Sig Λ₀ P fun p => (pc (F := F) cfgs p).Adm) .tc) PUnit)
    (segs : List (Pipeline.Seg (pc (F := F) cfgs) (ad cfgs) pdats () defs₀ .none L lv))
    (hmain : ∀ c, main c = Pipeline.Seg.run segs) (hnd : (Pipeline.Seg.pipes segs).Nodup) (Wn : Dev nD → Valuation τ sig (Elt F))
    (hch : Pipeline.Seg.Chains (fun c => iprop(StableHlo.held (c : Thread nD τ) (Pipeline.ucRefs τ sig) (fun b => m (c, b)) ∗ R c)) segs
      fun c => iprop((StableHlo.held (c : Thread nD τ) (Pipeline.ucRefs τ sig) (Wn c) ∗ ∃ r, prngReg c r)
        ∗ ∃ W, owes (c : Thread nD τ) (0 : CellTallies nD τ sig Unit) W)) :
    θ_run (Pipeline.defs (pc (F := F) cfgs) defs₀) (onTc (τ := τ) main) ⟨m, fun _ => 0, ρ⟩ (fun r => ∀ c : Dev nD,
      ∀ b ∈ Pipeline.ucRefs τ sig, r.2.mem (((c : Thread nD τ)).1, b) = Wn c b) :=
  Pipeline.θ_run_regions_kit (pc (F := F) cfgs) (ad cfgs) pdats () hinj emb₁ defs₀ .none L lv m ρ main segs
    (fun c Q => by rw [hmain c]) hnd
    (O₀ := 0) (hL := fun _ _ => rfl) (G := fun _ => iprop(emp))
    (u₀ := initOf (Pipeline.cells cfgs hinj) (Pipeline.launchToks cfgs hinj))
    (hu₀ := by
      iintro Hu; imodintro
      isplitl [Hu]
      · iapply (show (ownU (initOf (Pipeline.cells cfgs hinj) (Pipeline.launchToks cfgs hinj)) : sProp 𝕄)
            ⊢ BI.own (emb₁ (initOf (Pipeline.cells cfgs hinj) (Pipeline.launchToks cfgs hinj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R c))
    (Tₙ := fun c => iprop(StableHlo.held (c : Thread nD τ) (Pipeline.ucRefs τ sig) (Wn c) ∗ ∃ r, prngReg c r))
    (hch := hch)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wn c b)
    (hfin := fun c s' => by
      iintro ⟨⟨Hh, -⟩, HSI⟩
      unfold StableHlo.held
      imodintro
      iapply (pointsTo_read_all (Pipeline.ucRefs τ sig) (fun b => (((c : Thread nD τ)).1, b)) (Wn c) s')
      isplitl [Hh] <;> iassumption)
    (hQ := fun s h c => h c)

end Cert.LibSeg

end
-- ==== Proof.KI.Run.lean ====
import proofs.«162787_g2000605952690631_pallasbulk_304_2_alg».proof.Proof.KI.R0Frame
import proofs.«162787_g2000605952690631_pallasbulk_304_2_alg».proof.Proof.KI.R1Frame
import proofs.«162787_g2000605952690631_pallasbulk_304_2_alg».proof.Proof.KI.R2
import proofs.«162787_g2000605952690631_pallasbulk_304_2_alg».proof.Proof.Gen.KernelIdeal.Regions
import proofs.«162787_g2000605952690631_pallasbulk_304_2_alg».proof.Proof.LibSeg

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb

abbrev W7 : Dev nD → Valuation τ sig (Elt F) := fun c => StableHlo.after hostOps3 (W6 m ρ c)

/-- Each stretch changes only what it writes and each region only its arrays, so the launch contents pass through all seven. -/
theorem W7_keep (c : Dev nD) (r : Ref sig .tc)
    (h : (r ∉ hostOps0_W ∧ r ∉ hostOps1_W ∧ r ∉ hostOps2_W ∧ r ∉ hostOps3_W)
      ∧ (∀ w, Pipeline.arrRef spec1 w ≠ r) ∧ ∀ w, Pipeline.arrRef spec2 w ≠ r)
    (e : W2 m ρ c (Proc.devRef .tc r) = W1 m ρ c (Proc.devRef .tc r)) :
    W7 m ρ c (Proc.devRef .tc r) = m ((c : Thread nD τ).loc r) :=
  (StableHlo.after_of_writes_sub hostOps3 _ hostOps3_writes h.1.2.2.2).trans <| (W6_of_ne m ρ c r h.2.2).trans <|
  (StableHlo.after_of_writes_sub hostOps2 _ hostOps2_writes h.1.2.2.1).trans <| (W4_of_ne m ρ c r h.2.1).trans <|
  (StableHlo.after_of_writes_sub hostOps1 _ hostOps1_writes h.1.2.1).trans <| e.trans <|
  StableHlo.after_of_writes_sub hostOps0 _ hostOps0_writes h.1.1

/-- `main_arg0` is an input of region 0, which leaves its inputs as they were. -/
theorem W7_main_arg0 (c : Dev nD) : W7 m ρ c (Proc.devRef .tc main_arg0) = m ((c : Thread nD τ).loc main_arg0) :=
  W7_keep m ρ c _ (by decide) ((W2_arr m ρ c 2).trans (((dat0 (V1 m ρ) c).arrAt_in 2 rfl _).trans (A_eq0 (V1 m ρ) c 2)))
theorem W7_main_arg1 (c : Dev nD) : W7 m ρ c (Proc.devRef .tc main_arg1) = m ((c : Thread nD τ).loc main_arg1) :=
  W7_keep m ρ c _ (by decide) (W2_of_ne m ρ c _ (by decide))
theorem W7_main_arg2 (c : Dev nD) : W7 m ρ c (Proc.devRef .tc main_arg2) = m ((c : Thread nD τ).loc main_arg2) :=
  W7_keep m ρ c _ (by decide) (W2_of_ne m ρ c _ (by decide))
theorem W7_main_arg3 (c : Dev nD) : W7 m ρ c (Proc.devRef .tc main_arg3) = m ((c : Thread nD τ).loc main_arg3) :=
  W7_keep m ρ c _ (by decide) (W2_of_ne m ρ c _ (by decide))
theorem W7_main_arg4 (c : Dev nD) : W7 m ρ c (Proc.devRef .tc main_arg4) = m ((c : Thread nD τ).loc main_arg4) :=
  W7_keep m ρ c _ (by decide) (W2_of_ne m ρ c _ (by decide))
theorem W7_main_arg5 (c : Dev nD) : W7 m ρ c (Proc.devRef .tc main_arg5) = m ((c : Thread nD τ).loc main_arg5) :=
  W7_keep m ρ c _ (by decide) (W2_of_ne m ρ c _ (by decide))
theorem W7_main_arg6 (c : Dev nD) : W7 m ρ c (Proc.devRef .tc main_arg6) = m ((c : Thread nD τ).loc main_arg6) :=
  W7_keep m ρ c _ (by decide) (W2_of_ne m ρ c _ (by decide))

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
abbrev segs : List (Pipeline.Seg (pcfgs (F := F)) adm (pdats m ρ) () defs₀ .none LibSeg.L LibSeg.lv) :=
  [ .host (LibSeg.hseg cfgs defs₀ hostOps0 hostOps0_sub hostOps0_fresh (W0 m ρ)),
    .region (LibSeg.reg (pdats m ρ) defs₀ 0 launch0 (W1 m ρ) (W2 m ρ) (body_obligation0 (V1 m ρ))
      (fun _ => ⟨fun _ => rfl, fun _ => rfl, fun _ => rfl, fun _ => rfl⟩) (hin0 (V1 m ρ)) (hout0 (V1 m ρ)) (W2_arr m ρ) (W2_of_ne m ρ)),
    .host (LibSeg.hseg cfgs defs₀ hostOps1 hostOps1_sub hostOps1_fresh (W2 m ρ)),
    .region (LibSeg.reg (pdats m ρ) defs₀ 1 launch1 (W3 m ρ) (W4 m ρ) (body_obligation1 (V3 m ρ))
      (fun _ => ⟨fun _ => rfl, fun _ => rfl, fun _ => rfl, fun _ => rfl⟩) (hin1 (V3 m ρ)) (hout1 (V3 m ρ)) (W4_arr m ρ) (W4_of_ne m ρ)),
    .host (LibSeg.hseg cfgs defs₀ hostOps2 hostOps2_sub hostOps2_fresh (W4 m ρ)),
    .region (LibSeg.reg (pdats m ρ) defs₀ 2 launch2 (W5 m ρ) (W6 m ρ) (body_obligation2 (V5 m ρ))
      (fun _ => ⟨fun _ => rfl, fun _ => rfl, fun _ => rfl, fun _ => rfl⟩) (fun _ => .rfl) (fun _ => .rfl) (W6_arr m ρ) (W6_of_ne m ρ)),
    .host (LibSeg.hseg cfgs defs₀ hostOps3 hostOps3_sub hostOps3_fresh (W6 m ρ)) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  LibSeg.run_held (pdats m ρ) defs₀ cellOf_inj m ρ main (segs m ρ) (main_run m ρ)
    (by simp only [segs, Pipeline.Seg.pipes_host, Pipeline.Seg.pipes_region, Pipeline.Seg.pipes_nil]; decide) (W7 m ρ)
    ⟨fun _ => .rfl, fun _ => .rfl, fun _ => .rfl, fun _ => .rfl, fun _ => .rfl, fun _ => .rfl, fun _ => .rfl, fun _ => BI.sep_assoc'⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c)⟩) (run_all m ρ)

end Cert.KernelIdeal.Hand

end
-- ==== Proof.RI.R0Runs.lean ====
import proofs.«162787_g2000605952690631_pallasbulk_304_2_alg».proof.Proof.Gen.ReferenceIdeal.Launch
import proofs.«162787_g2000605952690631_pallasbulk_304_2_alg».proof.Proof.Gen.ReferenceIdeal.Skeleton
import proofs.«162787_g2000605952690631_pallasbulk_304_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0 (i : grid0.Coords) : Prop :=
  (Scalar.cmpi .ne (Scalar.extui (Scalar.cmpi .eq (BitVec.ofNat 32 (i 1).val) 0#32)) 0#32) = 1#1

theorem hcond0 : ∀ t : Fin cfg0.N, cond0 (grid0.coords t) ↔ t.val = 0 :=
  (by decide +kernel : ∀ t : Fin grid0.N, cond0 (grid0.coords t) ↔ t.val = 0)

abbrev ms0_0 (t : Fin cfg0.N) : Memref sig .tc .vmem S1x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x56x56x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S576x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x56x56x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev scM0 : Memref sig .tc .vmem S58x58x64 .f32 := Memref.whole cc0_scratch0
abbrev VS0 : View sig .tc .vmem S58x58x64 .f32 := scM0.view
abbrev VO0_4 : View sig .tc .vmem S1x56x56x128 .f32 := (Memref.whole cc0_stg4_0 : Memref sig .tc .vmem S1x56x56x128 .f32).view
abbrev VO0_5 : View sig .tc .vmem S1x128 .f32 := (Memref.whole cc0_stg5_0 : Memref sig .tc .vmem S1x128 .f32).view
abbrev VO0_6 : View sig .tc .vmem S1x128 .f32 := (Memref.whole cc0_stg6_0 : Memref sig .tc .vmem S1x128 .f32).view

abbrev others0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0
  rw [Pipeline.scopedRest_split_of_list spec0 c [cc0_scratch0] (by decide) (by decide)]
  simp only [bigSepL_singleton, scM0, owns_whole]
  rfl

set_option maxHeartbeats 4000000 in
noncomputable def kernelRun0_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x56x56x64 .f32) (harg4 : arg4.IsWhole) (arg5 : Memref sig .tc .vmem S576x128 .f32) (harg5 : arg5.IsWhole) (arg6 : Memref sig .tc .vmem S1x56x56x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S58x58x64 .f32) (harg9 : arg9.IsWhole) (hc0 : cond0 i)
    (x0 : Vec F S1x64 .f32) (x1 : Vec F S1x64 .f32) (x2 : Vec F S1x56x56x64 .f32) (x3 : Vec F S576x128 .f32) :
    Σ' (L4 : List (View.Piece (Elt F) S1x56x56x128 .f32)) (L5 : List (View.Piece (Elt F) S1x128 .f32)) (L6 : List (View.Piece (Elt F) S1x128 .f32)), { LS : List (View.Piece (Elt F) S58x58x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS)) -∗ K ⟨⟩))
          ⊢ wp frame (wpE (defs₀ (F := F)) Variants.none c none) E (cc0__conv_stats_kernel i arg2 harg2 arg3 harg3 arg4 harg4 arg5 harg5 arg6 harg6 arg7 harg7 arg8 harg8 arg9 harg9) K } := by
  refine ⟨?_, ?_, ?_, ?_, fun E K => ?run⟩
  case run =>
    simp only [cc0__conv_stats_kernel_eq_skeleton]; unfold cc0__conv_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _; iexact HS

set_option maxHeartbeats 4000000 in
noncomputable def kernelRun0_B (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x56x56x64 .f32) (harg4 : arg4.IsWhole) (arg5 : Memref sig .tc .vmem S576x128 .f32) (harg5 : arg5.IsWhole) (arg6 : Memref sig .tc .vmem S1x56x56x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S58x58x64 .f32) (harg9 : arg9.IsWhole) (hc0 : ¬cond0 i)
    (x0 : Vec F S1x64 .f32) (x1 : Vec F S1x64 .f32) (x2 : Vec F S1x56x56x64 .f32) (x3 : Vec F S576x128 .f32)
    (xo5 : Vec F S1x128 .f32) (xo6 : Vec F S1x128 .f32) (xs : Vec F S58x58x64 .f32) :
    Σ' (L4 : List (View.Piece (Elt F) S1x56x56x128 .f32)) (L5 : List (View.Piece (Elt F) S1x128 .f32)) (L6 : List (View.Piece (Elt F) S1x128 .f32)), { LS : List (View.Piece (Elt F) S58x58x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xo5 ∗ owns (c : Thread nD τ) arg8 fullShare xo6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ arg9.view.loc (c : Thread nD τ) ↦[arg9.view.set]{fullShare} arg9.view.writes (Elt F) (harg9.unread xs) LS) -∗ K ⟨⟩))
          ⊢ wp frame (wpE (defs₀ (F := F)) Variants.none c none) E (cc0__conv_stats_kernel i arg2 harg2 arg3 harg3 arg4 harg4 arg5 harg5 arg6 harg6 arg7 harg7 arg8 harg8 arg9 harg9) K } := by
  refine ⟨?_, ?_, ?_, ?_, fun E K => ?run⟩
  case run =>
    simp only [cc0__conv_stats_kernel_eq_skeleton]; unfold cc0__conv_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hf6; obtain rfl := harg9.eq_unread hfs
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexact HS

end Cert.ReferenceIdeal.Hand

end
-- ==== Proof.RI.R0Frame.lean ====
import proofs.«162787_g2000605952690631_pallasbulk_304_2_alg».proof.Proof.RI.R0Runs

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev runA0 (c : Dev nD) (t : Fin cfg0.N) (hc : cond0 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) hc (iblk0 V c 0 t) (iblk0 V c 1 t) (iblk0 V c 2 t) (iblk0 V c 3 t)

abbrev runB0 (c : Dev nD) (t : Fin cfg0.N) (hc : ¬cond0 (grid0.coords t)) (xo5 : Vec F S1x128 .f32) (xo6 : Vec F S1x128 .f32) (xs : Vec F S58x58x64 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) hc (iblk0 V c 0 t) (iblk0 V c 1 t) (iblk0 V c 2 t) (iblk0 V c 3 t) xo5 xo6 xs

abbrev Outs0 (F : FTy → Type) [FloatOps F] : Type :=
  Vec F S1x56x56x128 .f32 × Vec F S1x128 .f32 × Vec F S1x128 .f32 × Vec F S58x58x64 .f32

def outA0 (c : Dev nD) (t : Fin cfg0.N) (hc : cond0 (grid0.coords t)) : Outs0 F :=
  (VO0_4.read (Elt F) (VO0_4.writes (Elt F) VO0_4.junk (runA0 V c t hc).1),
   VO0_5.read (Elt F) (VO0_5.writes (Elt F) VO0_5.junk (runA0 V c t hc).2.1),
   VO0_6.read (Elt F) (VO0_6.writes (Elt F) VO0_6.junk (runA0 V c t hc).2.2.1),
   VS0.read (Elt F) (VS0.writes (Elt F) VS0.junk (runA0 V c t hc).2.2.2.1))

def outB0 (c : Dev nD) (t : Fin cfg0.N) (hc : ¬cond0 (grid0.coords t)) (xo5 : Vec F S1x128 .f32) (xo6 : Vec F S1x128 .f32) (xs : Vec F S58x58x64 .f32) : Outs0 F :=
  (VO0_4.read (Elt F) (VO0_4.writes (Elt F) VO0_4.junk (runB0 V c t hc xo5 xo6 xs).1),
   VO0_5.read (Elt F) (VO0_5.writes (Elt F) VO0_5.junk (runB0 V c t hc xo5 xo6 xs).2.1),
   VO0_6.read (Elt F) (VO0_6.writes (Elt F) VO0_6.junk (runB0 V c t hc xo5 xo6 xs).2.2.1),
   VS0.read (Elt F) (VS0.writes (Elt F) ((Memref.isWhole_whole _ : scM0.IsWhole).unread (Val := Elt F) xs) (runB0 V c t hc xo5 xo6 xs).2.2.2.1))

def outsAt0 (c : Dev nD) : (n : ℕ) → n < cfg0.N → Outs0 F
  | 0, hn => outA0 V c ⟨0, hn⟩ ((hcond0 ⟨0, hn⟩).mpr rfl)
  | n + 1, hn => outB0 V c ⟨n + 1, hn⟩ (fun h => Nat.succ_ne_zero n ((hcond0 ⟨n + 1, hn⟩).mp h))
      (outsAt0 c n (Nat.lt_of_succ_lt hn)).2.1 (outsAt0 c n (Nat.lt_of_succ_lt hn)).2.2.1 (outsAt0 c n (Nat.lt_of_succ_lt hn)).2.2.2

theorem outsAt0_A (c : Dev nD) (t : Fin cfg0.N) (h0 : t.val = 0) :
    outsAt0 V c t.val t.isLt = outA0 V c t ((hcond0 t).mpr h0) := by
  obtain ⟨_ | n, hn⟩ := t
  exacts [rfl, absurd h0 n.succ_ne_zero]

theorem outsAt0_B (c : Dev nD) (t : Fin cfg0.N) (h0 : t.val ≠ 0) :
    outsAt0 V c t.val t.isLt = outB0 V c t (fun h => h0 ((hcond0 t).mp h))
      (outsAt0 V c (t.val - 1) (Nat.lt_of_le_of_lt (Nat.sub_le _ _) t.isLt)).2.1
      (outsAt0 V c (t.val - 1) (Nat.lt_of_le_of_lt (Nat.sub_le _ _) t.isLt)).2.2.1
      (outsAt0 V c (t.val - 1) (Nat.lt_of_le_of_lt (Nat.sub_le _ _) t.isLt)).2.2.2 := by
  obtain ⟨_ | n, hn⟩ := t
  exacts [absurd rfl h0, rfl]

def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2.2.2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2.2.2) ∗ others0 c) ∗ (∃ r, prngReg c r)) := by
  cases n
  exacts [absurd rfl hz, rfl]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := rfl

theorem after0_4 (c : Dev nD) (t : Fin cfg0.N) : (dat0 V c).after 4 t = (outsAt0 V c t.val t.isLt).1 := rfl
theorem after0_5 (c : Dev nD) (t : Fin cfg0.N) : (dat0 V c).after 5 t = (outsAt0 V c t.val t.isLt).2.1 := rfl
theorem after0_6 (c : Dev nD) (t : Fin cfg0.N) : (dat0 V c).after 6 t = (outsAt0 V c t.val t.isLt).2.2.1 := rfl

-- The body leaves every input block as it found it, so an input's block is the same before and after each point.
theorem inputs0 (c : Dev nD) (t : Fin cfg0.N) :
    ((dat0 V c).after 0 t = iblk0 V c 0 t ∧ ∀ d, (dat0 V c).before 0 t d = iblk0 V c 0 t)
    ∧ ((dat0 V c).after 1 t = iblk0 V c 1 t ∧ ∀ d, (dat0 V c).before 1 t d = iblk0 V c 1 t)
    ∧ ((dat0 V c).after 2 t = iblk0 V c 2 t ∧ ∀ d, (dat0 V c).before 2 t d = iblk0 V c 2 t)
    ∧ ((dat0 V c).after 3 t = iblk0 V c 3 t ∧ ∀ d, (dat0 V c).before 3 t d = iblk0 V c 3 t) := by
  refine ⟨⟨rfl, fun d => ?_⟩, ⟨rfl, fun d => ?_⟩, ⟨rfl, fun d => ?_⟩, ⟨rfl, fun d => ?_⟩⟩ <;>
    exact ((dat0 V c).before_in_eq_fetched _ rfl (fun _ => rfl) (fun _ _ _ => rfl) (fun _ => rfl) t d).trans rfl

-- For t < 32 and t ≠ 0 the index t - 1 is not 31 modulo 32.
theorem noFlush0 (t : Fin cfg0.N) (ht : t.val ≠ 0) {w} (hf : ∀ s : Fin cfg0.N, (cfg0.win w).flush s = true ↔ s.val % 32 = 31) :
    (cfg0.win w).flush ⟨t.val - 1, Nat.lt_of_le_of_lt (Nat.sub_le _ _) t.isLt⟩ = false :=
  Bool.eq_false_iff.mpr fun h => by
    have := (hf _).mp h; have := lt_of_lt_of_eq t.isLt N_0; dsimp only at *; omega

set_option maxHeartbeats 4800000 in
-- Either run applies to what the point starts from; stores that tile a block determine its contents whatever it held before.
theorem body_obligation0 (c : Dev nD) : BodyObligation (dat0 (F := F) V c) (defs₀ (F := F)) Variants.none () Set.univ := fun t => by
  rw [bigSep_W0, bigSep_W0]
  show
    iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d))
      ∗ (∃ d, owns (c : Thread nD τ) (ms0_4 t) fullShare ((dat0 V c).before 4 t d))
      ∗ (∃ d, owns (c : Thread nD τ) (ms0_5 t) fullShare ((dat0 V c).before 5 t d))
      ∗ (∃ d, owns (c : Thread nD τ) (ms0_6 t) fullShare ((dat0 V c).before 6 t d)))
    ⊢ wp frame (wpE (defs₀ (F := F)) Variants.none c none) Set.univ (bodyAt0 t) fun _ =>
      iprop((dat0 V c).Φ t.succ ∗ (dat0 V c).owesAt () t.succ
        ∗ owns (c : Thread nD τ) (ms0_0 t) fullShare ((dat0 V c).after 0 t)
        ∗ owns (c : Thread nD τ) (ms0_1 t) fullShare ((dat0 V c).after 1 t)
        ∗ owns (c : Thread nD τ) (ms0_2 t) fullShare ((dat0 V c).after 2 t)
        ∗ owns (c : Thread nD τ) (ms0_3 t) fullShare ((dat0 V c).after 3 t)
        ∗ owns (c : Thread nD τ) (ms0_4 t) fullShare ((dat0 V c).after 4 t)
        ∗ owns (c : Thread nD τ) (ms0_5 t) fullShare ((dat0 V c).after 5 t)
        ∗ owns (c : Thread nD τ) (ms0_6 t) fullShare ((dat0 V c).after 6 t))
  simp only [inputs0 V c t, after0_4, after0_5, after0_6]
  rw [show (dat0 V c).owesAt () t.succ = (dat0 V c).owesAt () t.castSucc from rfl,
    show (dat0 V c).Φ t.succ = iprop(iprop(owns (c : Thread nD τ) scM0 fullShare (outsAt0 V c t.val t.isLt).2.2.2 ∗ others0 c) ∗ (∃ r, prngReg c r)) from rfl,
    show (dat0 V c).Φ t.castSucc = PhiS0 V c t.val (Nat.le_of_lt t.isLt) from rfl]
  by_cases hz : t.val = 0
  case' pos =>
    rw [outsAt0_A V c t hz, PhiS0_zero V c _ _ hz, PhiA0_eq]
    unfold outA0; dsimp only
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((runA0 V c t ((hcond0 t).mpr hz)).2.2.2.2 Set.univ _)
    iframe H0 H1 H2 H3 HS
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩, ⟨%es, HS⟩⟩
    ihave HS := (Ring.owns_of_writes_tiledL VS0 S58x58x64.size) $$ HS %(by sl_kernel_rfl)
  case' neg =>
    rw [outsAt0_B V c t hz, PhiS0_pos V c _ _ hz]
    simp only [(dat0 V c).before_out_kept 5 rfl t hz (noFlush0 t hz flush0_5) (fun _ => rfl) fun _ _ => rfl,
      (dat0 V c).before_out_kept 6 rfl t hz (noFlush0 t hz flush0_6) (fun _ => rfl) fun _ _ => rfl, after0_5, after0_6]
    unfold outB0; dsimp only
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((runB0 V c t (fun h => hz ((hcond0 t).mp h)) _ _ _).2.2.2.2 Set.univ _)
    iframe H0 H1 H2 H3 H5 H6 HS
    isplitl [H4]; · iexists _; iexact H4
    iintro ⟨H0, H1, H2, H3, ⟨%e4, H4⟩, ⟨%e5, H5⟩, ⟨%e6, H6⟩, HS⟩
    ihave HS := (owns_intro _ scM0 _ _) $$ HS
  all_goals
    ihave H4 := (Ring.owns_of_writes_tiledL VO0_4 S1x56x56x128.size) $$ H4 %(by sl_kernel_rfl)
    ihave H5 := (Ring.owns_of_writes_tiledL VO0_5 S1x128.size) $$ H5 %(by sl_kernel_rfl)
    ihave H6 := (Ring.owns_of_writes_tiledL VO0_6 S1x128.size) $$ H6 %(by sl_kernel_rfl)
    iframe

theorem hin0 (c : Dev nD) : Pipeline.ΦA spec0 c ⊢ (dat0 V c).Φ 0 := Entails.refl _

-- Named scratch contents are in particular some contents.
theorem hout0 (c : Dev nD) : (dat0 V c).Φ (Fin.last cfg0.N) ⊢ Pipeline.ΦA spec0 c := by
  rw [show (dat0 V c).Φ (Fin.last cfg0.N) = PhiS0 V c cfg0.N (Nat.le_refl _) from rfl,
    PhiS0_pos V c _ _ (by have : cfg0.N = 32 := N_0; omega), PhiA0_eq]
  iintro ⟨⟨HS, Hoth⟩, Hg⟩
  iframe Hoth Hg
  iexists _; iexact HS

end Region0

end Cert.ReferenceIdeal.Hand

end
-- ==== Proof.RI.R1Runs.lean ====
import proofs.«162787_g2000605952690631_pallasbulk_304_2_alg».proof.Proof.Gen.ReferenceIdeal.Launch
import proofs.«162787_g2000605952690631_pallasbulk_304_2_alg».proof.Proof.Gen.ReferenceIdeal.Skeleton
import proofs.«162787_g2000605952690631_pallasbulk_304_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1 (i : grid1.Coords) : Prop :=
  (Scalar.cmpi .ne (Scalar.extui (Scalar.cmpi .eq (BitVec.ofNat 32 (i 1).val) 0#32)) 0#32) = 1#1

theorem hcond1 : ∀ t : Fin cfg1.N, cond1 (grid1.coords t) ↔ t.val = 0 :=
  (by decide +kernel : ∀ t : Fin grid1.N, cond1 (grid1.coords t) ↔ t.val = 0)

abbrev ms1_0 (t : Fin cfg1.N) : Memref sig .tc .vmem S1x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x56x56x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1152x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x56x56x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev scM1 : Memref sig .tc .vmem S58x58x128 .f32 := Memref.whole cc1_scratch0
abbrev VS1 : View sig .tc .vmem S58x58x128 .f32 := scM1.view
abbrev VO1_4 : View sig .tc .vmem S1x56x56x128 .f32 := (Memref.whole cc1_stg4_0 : Memref sig .tc .vmem S1x56x56x128 .f32).view
abbrev VO1_5 : View sig .tc .vmem S1x128 .f32 := (Memref.whole cc1_stg5_0 : Memref sig .tc .vmem S1x128 .f32).view
abbrev VO1_6 : View sig .tc .vmem S1x128 .f32 := (Memref.whole cc1_stg6_0 : Memref sig .tc .vmem S1x128 .f32).view

abbrev others1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA others1
  rw [Pipeline.scopedRest_split_of_list spec1 c [cc1_scratch0] (by decide) (by decide)]
  simp only [bigSepL_singleton, scM1, owns_whole]
  rfl

set_option maxHeartbeats 4000000 in
noncomputable def kernelRun1_A (c : Dev nD) (i : grid1.Coords) (arg2 : Memref sig .tc .vmem S1x128 .f32) (harg2 : arg2.IsWhole) (arg3 : Memref sig .tc .vmem S1x128 .f32) (harg3 : arg3.IsWhole) (arg4 : Memref sig .tc .vmem S1x56x56x128 .f32) (harg4 : arg4.IsWhole) (arg5 : Memref sig .tc .vmem S1152x128 .f32) (harg5 : arg5.IsWhole) (arg6 : Memref sig .tc .vmem S1x56x56x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S58x58x128 .f32) (harg9 : arg9.IsWhole) (hc1 : cond1 i)
    (x0 : Vec F S1x128 .f32) (x1 : Vec F S1x128 .f32) (x2 : Vec F S1x56x56x128 .f32) (x3 : Vec F S1152x128 .f32) :
    Σ' (L4 : List (View.Piece (Elt F) S1x56x56x128 .f32)) (L5 : List (View.Piece (Elt F) S1x128 .f32)) (L6 : List (View.Piece (Elt F) S1x128 .f32)), { LS : List (View.Piece (Elt F) S58x58x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS)) -∗ K ⟨⟩))
          ⊢ wp frame (wpE (defs₀ (F := F)) Variants.none c none) E (cc1__conv_stats_kernel i arg2 harg2 arg3 harg3 arg4 harg4 arg5 harg5 arg6 harg6 arg7 harg7 arg8 harg8 arg9 harg9) K } := by
  refine ⟨?_, ?_, ?_, ?_, fun E K => ?run⟩
  case run =>
    simp only [cc1__conv_stats_kernel_eq_skeleton]; unfold cc1__conv_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _; iexact HS

set_option maxHeartbeats 4000000 in
noncomputable def kernelRun1_B (c : Dev nD) (i : grid1.Coords) (arg2 : Memref sig .tc .vmem S1x128 .f32) (harg2 : arg2.IsWhole) (arg3 : Memref sig .tc .vmem S1x128 .f32) (harg3 : arg3.IsWhole) (arg4 : Memref sig .tc .vmem S1x56x56x128 .f32) (harg4 : arg4.IsWhole) (arg5 : Memref sig .tc .vmem S1152x128 .f32) (harg5 : arg5.IsWhole) (arg6 : Memref sig .tc .vmem S1x56x56x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S58x58x128 .f32) (harg9 : arg9.IsWhole) (hc1 : ¬cond1 i)
    (x0 : Vec F S1x128 .f32) (x1 : Vec F S1x128 .f32) (x2 : Vec F S1x56x56x128 .f32) (x3 : Vec F S1152x128 .f32)
    (xo5 : Vec F S1x128 .f32) (xo6 : Vec F S1x128 .f32) (xs : Vec F S58x58x128 .f32) :
    Σ' (L4 : List (View.Piece (Elt F) S1x56x56x128 .f32)) (L5 : List (View.Piece (Elt F) S1x128 .f32)) (L6 : List (View.Piece (Elt F) S1x128 .f32)), { LS : List (View.Piece (Elt F) S58x58x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xo5 ∗ owns (c : Thread nD τ) arg8 fullShare xo6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (arg9.view.loc (c : Thread nD τ) ↦[arg9.view.set]{fullShare} arg9.view.writes (Elt F) (harg9.unread xs) LS)) -∗ K ⟨⟩))
          ⊢ wp frame (wpE (defs₀ (F := F)) Variants.none c none) E (cc1__conv_stats_kernel i arg2 harg2 arg3 harg3 arg4 harg4 arg5 harg5 arg6 harg6 arg7 harg7 arg8 harg8 arg9 harg9) K } := by
  refine ⟨?_, ?_, ?_, ?_, fun E K => ?run⟩
  case run =>
    simp only [cc1__conv_stats_kernel_eq_skeleton]; unfold cc1__conv_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hf6; obtain rfl := harg9.eq_unread hfs
    sl_exec (disch := first | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexact HS

end Cert.ReferenceIdeal.Hand

end
-- ==== Proof.RI.R1Frame.lean ====
import proofs.«162787_g2000605952690631_pallasbulk_304_2_alg».proof.Proof.RI.R1Runs

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev runA1 (c : Dev nD) (t : Fin cfg1.N) (hc : cond1 (grid1.coords t)) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc (iblk1 V c 0 t) (iblk1 V c 1 t) (iblk1 V c 2 t) (iblk1 V c 3 t)

abbrev runB1 (c : Dev nD) (t : Fin cfg1.N) (hc : ¬cond1 (grid1.coords t)) (xo5 : Vec F S1x128 .f32) (xo6 : Vec F S1x128 .f32) (xs : Vec F S58x58x128 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc (iblk1 V c 0 t) (iblk1 V c 1 t) (iblk1 V c 2 t) (iblk1 V c 3 t) xo5 xo6 xs

def outA1 (c : Dev nD) (t : Fin cfg1.N) (hc : cond1 (grid1.coords t)) : Vec F S1x56x56x128 .f32 × Vec F S1x128 .f32 × Vec F S1x128 .f32 × Vec F S58x58x128 .f32 :=
  (VO1_4.read (Elt F) (VO1_4.writes (Elt F) VO1_4.junk (runA1 V c t hc).1),
   VO1_5.read (Elt F) (VO1_5.writes (Elt F) VO1_5.junk (runA1 V c t hc).2.1),
   VO1_6.read (Elt F) (VO1_6.writes (Elt F) VO1_6.junk (runA1 V c t hc).2.2.1),
   VS1.read (Elt F) (VS1.writes (Elt F) VS1.junk (runA1 V c t hc).2.2.2.1))

def outB1 (c : Dev nD) (t : Fin cfg1.N) (hc : ¬cond1 (grid1.coords t)) (xo5 : Vec F S1x128 .f32) (xo6 : Vec F S1x128 .f32) (xs : Vec F S58x58x128 .f32) : Vec F S1x56x56x128 .f32 × Vec F S1x128 .f32 × Vec F S1x128 .f32 × Vec F S58x58x128 .f32 :=
  (VO1_4.read (Elt F) (VO1_4.writes (Elt F) VO1_4.junk (runB1 V c t hc xo5 xo6 xs).1),
   VO1_5.read (Elt F) (VO1_5.writes (Elt F) VO1_5.junk (runB1 V c t hc xo5 xo6 xs).2.1),
   VO1_6.read (Elt F) (VO1_6.writes (Elt F) VO1_6.junk (runB1 V c t hc xo5 xo6 xs).2.2.1),
   VS1.read (Elt F) (VS1.writes (Elt F) ((Memref.isWhole_whole _ : scM1.IsWhole).unread xs) (runB1 V c t hc xo5 xo6 xs).2.2.2.1))

def outsAt1 (c : Dev nD) : (n : ℕ) → n < cfg1.N → Vec F S1x56x56x128 .f32 × Vec F S1x128 .f32 × Vec F S1x128 .f32 × Vec F S58x58x128 .f32
  | 0, hn => outA1 V c ⟨0, hn⟩ ((hcond1 ⟨0, hn⟩).mpr rfl)
  | n + 1, hn => outB1 V c ⟨n + 1, hn⟩ (fun h => Nat.succ_ne_zero n ((hcond1 ⟨n + 1, hn⟩).mp h))
      (outsAt1 c n (Nat.lt_of_succ_lt hn)).2.1 (outsAt1 c n (Nat.lt_of_succ_lt hn)).2.2.1 (outsAt1 c n (Nat.lt_of_succ_lt hn)).2.2.2

theorem outsAt1_A (c : Dev nD) (t : Fin cfg1.N) (h0 : t.val = 0) :
    outsAt1 V c t.val t.isLt = outA1 V c t ((hcond1 t).mpr h0) := by
  obtain ⟨_ | n, hn⟩ := t
  exacts [rfl, absurd h0 n.succ_ne_zero]

theorem outsAt1_B (c : Dev nD) (t : Fin cfg1.N) (h0 : t.val ≠ 0) :
    outsAt1 V c t.val t.isLt = outB1 V c t (fun h => h0 ((hcond1 t).mp h))
      (outsAt1 V c (t.val - 1) (Nat.lt_of_le_of_lt (Nat.sub_le _ _) t.isLt)).2.1
      (outsAt1 V c (t.val - 1) (Nat.lt_of_le_of_lt (Nat.sub_le _ _) t.isLt)).2.2.1
      (outsAt1 V c (t.val - 1) (Nat.lt_of_le_of_lt (Nat.sub_le _ _) t.isLt)).2.2.2 := by
  obtain ⟨_ | n, hn⟩ := t
  exacts [absurd rfl h0, rfl]

def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2.2.2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2.2.2) ∗ others1 c) ∗ (∃ r, prngReg c r)) := by
  cases n
  exacts [absurd rfl hz, rfl]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

theorem after1_4 (c : Dev nD) (t : Fin cfg1.N) : (dat1 V c).after 4 t = (outsAt1 V c t.val t.isLt).1 := rfl
theorem after1_5 (c : Dev nD) (t : Fin cfg1.N) : (dat1 V c).after 5 t = (outsAt1 V c t.val t.isLt).2.1 := rfl
theorem after1_6 (c : Dev nD) (t : Fin cfg1.N) : (dat1 V c).after 6 t = (outsAt1 V c t.val t.isLt).2.2.1 := rfl

-- The body leaves every input block as it found it, so an input's block is the same before and after each point.
theorem inputs1 (c : Dev nD) (t : Fin cfg1.N) :
    ((dat1 V c).after 0 t = iblk1 V c 0 t ∧ ∀ d, (dat1 V c).before 0 t d = iblk1 V c 0 t)
    ∧ ((dat1 V c).after 1 t = iblk1 V c 1 t ∧ ∀ d, (dat1 V c).before 1 t d = iblk1 V c 1 t)
    ∧ ((dat1 V c).after 2 t = iblk1 V c 2 t ∧ ∀ d, (dat1 V c).before 2 t d = iblk1 V c 2 t)
    ∧ ((dat1 V c).after 3 t = iblk1 V c 3 t ∧ ∀ d, (dat1 V c).before 3 t d = iblk1 V c 3 t) := by
  refine ⟨⟨rfl, fun d => ?_⟩, ⟨rfl, fun d => ?_⟩, ⟨rfl, fun d => ?_⟩, ⟨rfl, fun d => ?_⟩⟩ <;>
    exact ((dat1 V c).before_in_eq_fetched _ rfl (fun _ => rfl) (fun _ _ _ => rfl) (fun _ => rfl) t d).trans rfl

-- For t < 32 and t ≠ 0 the index t - 1 is not 31 modulo 32.
theorem noFlush1 (t : Fin cfg1.N) (ht : t.val ≠ 0) {w} (hf : ∀ s : Fin cfg1.N, (cfg1.win w).flush s = true ↔ s.val % 32 = 31) :
    (cfg1.win w).flush ⟨t.val - 1, Nat.lt_of_le_of_lt (Nat.sub_le _ _) t.isLt⟩ = false :=
  Bool.eq_false_iff.mpr fun h => by
    have := (hf _).mp h; have := lt_of_lt_of_eq t.isLt N_1; dsimp only at *; omega

set_option maxHeartbeats 4800000 in
-- Either run applies to what the point starts from; stores that tile a block determine its contents whatever it held before.
theorem body_obligation1 (c : Dev nD) : BodyObligation (dat1 (F := F) V c) (defs₀ (F := F)) Variants.none () Set.univ := fun t => by
  rw [bigSep_W1, bigSep_W1]
  show
    iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d))
      ∗ (∃ d, owns (c : Thread nD τ) (ms1_4 t) fullShare ((dat1 V c).before 4 t d))
      ∗ (∃ d, owns (c : Thread nD τ) (ms1_5 t) fullShare ((dat1 V c).before 5 t d))
      ∗ (∃ d, owns (c : Thread nD τ) (ms1_6 t) fullShare ((dat1 V c).before 6 t d)))
    ⊢ wp frame (wpE (defs₀ (F := F)) Variants.none c none) Set.univ (bodyAt1 t) fun _ =>
      iprop((dat1 V c).Φ t.succ ∗ (dat1 V c).owesAt () t.succ
        ∗ owns (c : Thread nD τ) (ms1_0 t) fullShare ((dat1 V c).after 0 t)
        ∗ owns (c : Thread nD τ) (ms1_1 t) fullShare ((dat1 V c).after 1 t)
        ∗ owns (c : Thread nD τ) (ms1_2 t) fullShare ((dat1 V c).after 2 t)
        ∗ owns (c : Thread nD τ) (ms1_3 t) fullShare ((dat1 V c).after 3 t)
        ∗ owns (c : Thread nD τ) (ms1_4 t) fullShare ((dat1 V c).after 4 t)
        ∗ owns (c : Thread nD τ) (ms1_5 t) fullShare ((dat1 V c).after 5 t)
        ∗ owns (c : Thread nD τ) (ms1_6 t) fullShare ((dat1 V c).after 6 t))
  simp only [inputs1 V c t, after1_4, after1_5, after1_6]
  rw [show (dat1 V c).owesAt () t.succ = (dat1 V c).owesAt () t.castSucc from rfl,
    show (dat1 V c).Φ t.succ = iprop(iprop(owns (c : Thread nD τ) scM1 fullShare (outsAt1 V c t.val t.isLt).2.2.2 ∗ others1 c) ∗ (∃ r, prngReg c r)) from rfl,
    show (dat1 V c).Φ t.castSucc = PhiS1 V c t.val (Nat.le_of_lt t.isLt) from rfl]
  by_cases hz : t.val = 0
  case' pos =>
    rw [outsAt1_A V c t hz, PhiS1_zero V c _ _ hz, PhiA1_eq]
    unfold outA1; dsimp only
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((runA1 V c t ((hcond1 t).mpr hz)).2.2.2.2 Set.univ _)
    iframe H0 H1 H2 H3 HS
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩, ⟨%es, HS⟩⟩
    ihave HS := (Ring.owns_of_writes_tiledL VS1 S58x58x128.size) $$ HS %(by sl_kernel_rfl)
  case' neg =>
    rw [outsAt1_B V c t hz, PhiS1_pos V c _ _ hz]
    simp only [(dat1 V c).before_out_kept 5 rfl t hz (noFlush1 t hz flush1_5) (fun _ => rfl) fun _ _ => rfl,
      (dat1 V c).before_out_kept 6 rfl t hz (noFlush1 t hz flush1_6) (fun _ => rfl) fun _ _ => rfl, after1_5, after1_6]
    unfold outB1; dsimp only
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((runB1 V c t (fun h => hz ((hcond1 t).mp h)) _ _ _).2.2.2.2 Set.univ _)
    iframe H0 H1 H2 H3 H5 H6 HS
    isplitl [H4]; · iexists _; iexact H4
    iintro ⟨H0, H1, H2, H3, ⟨%e4, H4⟩, ⟨%e5, H5⟩, ⟨%e6, H6⟩, HS⟩
    ihave HS := (owns_intro _ scM1 _ _) $$ HS
  all_goals
    ihave H4 := (Ring.owns_of_writes_tiledL VO1_4 S1x56x56x128.size) $$ H4 %(by sl_kernel_rfl)
    ihave H5 := (Ring.owns_of_writes_tiledL VO1_5 S1x128.size) $$ H5 %(by sl_kernel_rfl)
    ihave H6 := (Ring.owns_of_writes_tiledL VO1_6 S1x128.size) $$ H6 %(by sl_kernel_rfl)
    iframe

theorem hin1 (c : Dev nD) : Pipeline.ΦA spec1 c ⊢ (dat1 V c).Φ 0 := Entails.refl _

-- Named scratch contents are in particular some contents.
theorem hout1 (c : Dev nD) : (dat1 V c).Φ (Fin.last cfg1.N) ⊢ Pipeline.ΦA spec1 c := by
  rw [show (dat1 V c).Φ (Fin.last cfg1.N) = PhiS1 V c cfg1.N (Nat.le_refl _) from rfl,
    PhiS1_pos V c _ _ (by have : cfg1.N = 32 := N_1; omega), PhiA1_eq]
  iintro ⟨⟨HS, Hoth⟩, Hg⟩
  iframe Hoth Hg
  iexists _; iexact HS

end Region1

end Cert.ReferenceIdeal.Hand

end
-- ==== Proof.RI.R2.lean ====
import proofs.«162787_g2000605952690631_pallasbulk_304_2_alg».proof.Proof.Gen.ReferenceIdeal.Launch
import proofs.«162787_g2000605952690631_pallasbulk_304_2_alg».proof.Proof.Gen.ReferenceIdeal.Skeleton
import proofs.«162787_g2000605952690631_pallasbulk_304_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_blk : Rect S1x56x7168 := Rect.unit (s := S1x56x7168) ![0, 0, 0] S1x56x7168.size inb_S1x56x7168_S1x56x7168_0_0_0
abbrev r2_row : Rect S1x7168 := Rect.unit (s := S1x7168) ![0, 0] S1x7168.size inb_S1x7168_S1x7168_0_0

def out2_3 (x0 : Vec F S1x7168 .f32) (x1 : Vec F S1x7168 .f32) (x2 : Vec F S1x56x7168 .f32) : Vec F S1x56x7168 .f32 :=
  View.canon [⟨r2_blk, k2_pay1 (View.ld x2 r2_blk) (View.ld x0 r2_row) (View.ld x1 r2_row)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

-- The body returns each input block unchanged, so what it is given at any point is the array's block there.
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

-- One store covers the whole output block.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).Φ t.succ = (dat2 V c).Φ t.castSucc from rfl,
    show (dat2 V c).owesAt () t.succ = (dat2 V c).owesAt () t.castSucc from rfl]
  simp only [before2_0, before2_1, before2_2, after2_0, after2_1, after2_2, after2_3, cc2__bn_relu_kernel_eq_skeleton]
  generalize iblk2 V c 0 t = x0, iblk2 V c 1 t = x1, iblk2 V c 2 t = x2
  unfold cc2__bn_relu_kernel_skel owns
  iintro ⟨HΦ, Ho, ⟨%d0, %f0, %hf0, H0⟩, ⟨%d1, %f1, %hf1, H1⟩, ⟨%d2, %f2, %hf2, H2⟩, ⟨%d3, %f3, -, H3⟩⟩
  subst hf0; subst hf1; subst hf2
  sl_exec
  sl_step
  isplitl [HΦ]; · iexact HΦ
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  iexists _; isplitr
  swap; · iexact H3
  ipureintro
  exact View.read_writes_eq_canon _ _ _ (View.cover_of_tiled _ S1x56x7168.size (by rfl))

theorem body_obligation2 (c : Dev nD) : BodyObligation (dat2 (F := F) V c) (defs₀ (F := F)) Variants.none () Set.univ := fun t => by
  rw [bigSep_W2, bigSep_W2]
  exact sound_body2 V c t

end Region2

end Cert.ReferenceIdeal.Hand

end
-- ==== Proof.RI.Run.lean ====
import proofs.«162787_g2000605952690631_pallasbulk_304_2_alg».proof.Proof.RI.R0Frame
import proofs.«162787_g2000605952690631_pallasbulk_304_2_alg».proof.Proof.RI.R1Frame
import proofs.«162787_g2000605952690631_pallasbulk_304_2_alg».proof.Proof.RI.R2
import proofs.«162787_g2000605952690631_pallasbulk_304_2_alg».proof.Proof.Gen.ReferenceIdeal.Regions
import proofs.«162787_g2000605952690631_pallasbulk_304_2_alg».proof.Proof.LibSeg

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem
open Idealize.ShloMosaic.Pipeline (Dat)

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb

abbrev W7 : Dev nD → Valuation τ sig (Elt F) := fun c => StableHlo.after hostOps3 (W6 m ρ c)

/-- Each stretch changes only what it writes and each region only its arrays, so the launch contents pass through all seven. -/
theorem W7_keep (c : Dev nD) (r : Ref sig .tc)
    (h : (r ∉ hostOps0_W ∧ r ∉ hostOps1_W ∧ r ∉ hostOps2_W ∧ r ∉ hostOps3_W)
      ∧ (∀ w, Pipeline.arrRef spec1 w ≠ r) ∧ ∀ w, Pipeline.arrRef spec2 w ≠ r)
    (e : W2 m ρ c (Proc.devRef .tc r) = W1 m ρ c (Proc.devRef .tc r)) :
    W7 m ρ c (Proc.devRef .tc r) = m ((c : Thread nD τ).loc r) :=
  (StableHlo.after_of_writes_sub hostOps3 _ hostOps3_writes h.1.2.2.2).trans <| (W6_of_ne m ρ c r h.2.2).trans <|
  (StableHlo.after_of_writes_sub hostOps2 _ hostOps2_writes h.1.2.2.1).trans <| (W4_of_ne m ρ c r h.2.1).trans <|
  (StableHlo.after_of_writes_sub hostOps1 _ hostOps1_writes h.1.2.1).trans <| e.trans <|
  StableHlo.after_of_writes_sub hostOps0 _ hostOps0_writes h.1.1

/-- `main_arg0` is an input of region 0, which leaves its inputs as they were. -/
theorem W7_main_arg0 (c : Dev nD) : W7 m ρ c (Proc.devRef .tc main_arg0) = m ((c : Thread nD τ).loc main_arg0) :=
  W7_keep m ρ c _ (by decide) ((W2_arr m ρ c 2).trans (((dat0 (V1 m ρ) c).arrAt_in 2 rfl _).trans (A_eq0 (V1 m ρ) c 2)))
theorem W7_main_arg1 (c : Dev nD) : W7 m ρ c (Proc.devRef .tc main_arg1) = m ((c : Thread nD τ).loc main_arg1) :=
  W7_keep m ρ c _ (by decide) (W2_of_ne m ρ c _ (by decide))
theorem W7_main_arg2 (c : Dev nD) : W7 m ρ c (Proc.devRef .tc main_arg2) = m ((c : Thread nD τ).loc main_arg2) :=
  W7_keep m ρ c _ (by decide) (W2_of_ne m ρ c _ (by decide))
theorem W7_main_arg3 (c : Dev nD) : W7 m ρ c (Proc.devRef .tc main_arg3) = m ((c : Thread nD τ).loc main_arg3) :=
  W7_keep m ρ c _ (by decide) (W2_of_ne m ρ c _ (by decide))
theorem W7_main_arg4 (c : Dev nD) : W7 m ρ c (Proc.devRef .tc main_arg4) = m ((c : Thread nD τ).loc main_arg4) :=
  W7_keep m ρ c _ (by decide) (W2_of_ne m ρ c _ (by decide))
theorem W7_main_arg5 (c : Dev nD) : W7 m ρ c (Proc.devRef .tc main_arg5) = m ((c : Thread nD τ).loc main_arg5) :=
  W7_keep m ρ c _ (by decide) (W2_of_ne m ρ c _ (by decide))
theorem W7_main_arg6 (c : Dev nD) : W7 m ρ c (Proc.devRef .tc main_arg6) = m ((c : Thread nD τ).loc main_arg6) :=
  W7_keep m ρ c _ (by decide) (W2_of_ne m ρ c _ (by decide))

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
abbrev segs : List (Pipeline.Seg (pcfgs (F := F)) adm (pdats m ρ) () defs₀ .none LibSeg.L LibSeg.lv) :=
  [ .host (LibSeg.hseg cfgs defs₀ hostOps0 hostOps0_sub hostOps0_fresh (W0 m ρ)),
    .region (LibSeg.reg (pdats m ρ) defs₀ 0 launch0 (W1 m ρ) (W2 m ρ) (body_obligation0 (V1 m ρ))
      (fun _ => ⟨fun _ => rfl, fun _ => rfl, fun _ => rfl, fun _ => rfl⟩) (hin0 (V1 m ρ)) (hout0 (V1 m ρ)) (W2_arr m ρ) (W2_of_ne m ρ)),
    .host (LibSeg.hseg cfgs defs₀ hostOps1 hostOps1_sub hostOps1_fresh (W2 m ρ)),
    .region (LibSeg.reg (pdats m ρ) defs₀ 1 launch1 (W3 m ρ) (W4 m ρ) (body_obligation1 (V3 m ρ))
      (fun _ => ⟨fun _ => rfl, fun _ => rfl, fun _ => rfl, fun _ => rfl⟩) (hin1 (V3 m ρ)) (hout1 (V3 m ρ)) (W4_arr m ρ) (W4_of_ne m ρ)),
    .host (LibSeg.hseg cfgs defs₀ hostOps2 hostOps2_sub hostOps2_fresh (W4 m ρ)),
    .region (LibSeg.reg (pdats m ρ) defs₀ 2 launch2 (W5 m ρ) (W6 m ρ) (body_obligation2 (V5 m ρ))
      (fun _ => ⟨fun _ => rfl, fun _ => rfl, fun _ => rfl, fun _ => rfl⟩) (fun _ => .rfl) (fun _ => .rfl) (W6_arr m ρ) (W6_of_ne m ρ)),
    .host (LibSeg.hseg cfgs defs₀ hostOps3 hostOps3_sub hostOps3_fresh (W6 m ρ)) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  LibSeg.run_held (pdats m ρ) defs₀ cellOf_inj m ρ main (segs m ρ) (main_run m ρ)
    (by simp only [segs, Pipeline.Seg.pipes_host, Pipeline.Seg.pipes_region, Pipeline.Seg.pipes_nil]; decide) (W7 m ρ)
    ⟨fun _ => .rfl, fun _ => .rfl, fun _ => .rfl, fun _ => .rfl, fun _ => .rfl, fun _ => .rfl, fun _ => .rfl, fun _ => BI.sep_assoc'⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c)⟩) (run_all m ρ)

end Cert.ReferenceIdeal.Hand

end
-- ==== Proof.KI.HostVal.lean ====
import proofs.«162787_g2000605952690631_pallasbulk_304_2_alg».proof.Proof.Gen.KernelIdeal.Launch
import proofs.«162787_g2000605952690631_pallasbulk_304_2_alg».proof.Proof.Gen.KernelIdeal.Regions
import Idealize.ShloMosaic.Lib.StableHlo.Run

noncomputable section

namespace Cert.KernelIdeal.Hand

open Cert.KernelIdeal Cert.KernelIdeal.Gen
open Idealize.ShloMosaic Idealize.ShloMosaic.TcCoe
open Idealize.SL.Sem

variable {F : FTy → Type} [FloatOps F]

def w2d1 (x : Vec F S3x3x64x128 .f32) : Vec F S576x128 .bf16 :=
  truncf .bf16 (shapeCast S576x128 x shapeCasts_S3x3x64x128_S576x128) bitsLt_bf16_f32

def w2d2 (x : Vec F S3x3x128x128 .f32) : Vec F S1152x128 .bf16 :=
  truncf .bf16 (shapeCast S1152x128 x shapeCasts_S3x3x128x128_S1152x128) bitsLt_bf16_f32

def onesRow : Vec F S1x64 .f32 := broadcastInDim S1x64 ![] bcast_S_S1x64 (constant (F := F) S_ .f32 0x3F800000#32)
def zerosRow : Vec F S1x64 .f32 := broadcastInDim S1x64 ![] bcast_S_S1x64 (constant (F := F) S_ .f32 0x00000000#32)

-- A per-channel sum over the 100352 = 32 · 56 · 56 elements of a channel, divided by that count.
def bnMean (s : Vec F S1x128 .f32) : Vec F S1x128 .f32 :=
  Host.divf s (broadcastInDim S1x128 ![] bcast_S_S1x128 (constant (F := F) S_ .f32 0x47C40000#32))

-- g · rsqrt (max (E[x²] − E[x]², 0) + ε) per channel.
def bnScale (s sq : Vec F S1x128 .f32) (g : Vec F S128 .f32) : Vec F S1x128 .f32 :=
  mulf (shapeCast S1x128 g shapeCasts_S128_S1x128)
    (Host.rsqrt
      (addf
        (maximumf (subf (bnMean sq) (mulf (bnMean s) (bnMean s)))
          (broadcastInDim S1x128 ![] bcast_S_S1x128 (constant (F := F) S_ .f32 0x00000000#32)))
        (broadcastInDim S1x128 ![] bcast_S_S1x128 (constant (F := F) S_ .f32 0x3727C5AC#32))))

-- b − E[x] · scale per channel.
def bnShift (s sq : Vec F S1x128 .f32) (g b : Vec F S128 .f32) : Vec F S1x128 .f32 :=
  subf (shapeCast S1x128 b shapeCasts_S128_S1x128) (mulf (bnMean s) (bnScale s sq g))

-- The 128 channel entries repeated 56 times along a row of 7168.
def tileRow (r : Vec F S1x128 .f32) : Vec F S1x7168 .f32 :=
  shapeCast S1x7168
    (broadcastInDim S1x1x56x128 ![0, 1, 2, 3] bcast_S1x1x1x128_S1x1x56x128_0_1_2_3 (shapeCast S1x1x1x128 r shapeCasts_S1x128_S1x1x1x128))
    shapeCasts_S1x1x56x128_S1x7168

def flat3 (x : Vec F S32x56x56x128 .bf16) : Vec F S32x56x7168 .bf16 := shapeCast S32x56x7168 x shapeCasts_S32x56x56x128_S32x56x7168
def unflat (y : Vec F S32x56x7168 .f32) : Vec F S32x56x56x128 .f32 := shapeCast S32x56x56x128 y shapeCasts_S32x56x7168_S32x56x56x128

section Stretches

variable (W : Valuation τ sig (Elt F))

theorem host0_w2d1 : StableHlo.after hostOps0 W (Proc.devRef .tc main_v1) = w2d1 (W (Proc.devRef .tc main_arg1)) := by
  after_results_simp; rfl
theorem host0_w2d2 : StableHlo.after hostOps0 W (Proc.devRef .tc main_v3) = w2d2 (W (Proc.devRef .tc main_arg2)) := by
  after_results_simp; rfl
theorem host1_scale : StableHlo.after hostOps1 W (Proc.devRef .tc main_v19)
    = bnScale (W (Proc.devRef .tc main_v6_1)) (W (Proc.devRef .tc main_v6_2)) (W (Proc.devRef .tc main_arg3)) := by
  after_results_simp; rfl
theorem host1_shift : StableHlo.after hostOps1 W (Proc.devRef .tc main_v22)
    = bnShift (W (Proc.devRef .tc main_v6_1)) (W (Proc.devRef .tc main_v6_2)) (W (Proc.devRef .tc main_arg3)) (W (Proc.devRef .tc main_arg4)) := by
  after_results_simp; rfl

theorem host2_flat : StableHlo.after hostOps2 W (Proc.devRef .tc main_v40) = flat3 (W (Proc.devRef .tc main_v23_0)) := by
  after_results_simp; rfl
theorem host2_scale : StableHlo.after hostOps2 W (Proc.devRef .tc main_v43)
    = tileRow (bnScale (W (Proc.devRef .tc main_v23_1)) (W (Proc.devRef .tc main_v23_2)) (W (Proc.devRef .tc main_arg5))) := by
  after_results_simp; rfl
theorem host2_shift : StableHlo.after hostOps2 W (Proc.devRef .tc main_v46)
    = tileRow (bnShift (W (Proc.devRef .tc main_v23_1)) (W (Proc.devRef .tc main_v23_2)) (W (Proc.devRef .tc main_arg5)) (W (Proc.devRef .tc main_arg6))) := by
  after_results_simp; rfl

theorem host3_unflat : StableHlo.after hostOps3 W (Proc.devRef .tc main_v48) = unflat (W (Proc.devRef .tc main_v47)) := by
  after_results_simp; rfl

-- A stretch leaves every buffer outside its write set as it found it.
theorem host0_keep (r : Ref sig .tc) (h : r ∉ hostOps0_W) : StableHlo.after hostOps0 W (Proc.devRef .tc r) = W (Proc.devRef .tc r) :=
  StableHlo.after_of_writes_sub hostOps0 W hostOps0_writes h
theorem host1_keep (r : Ref sig .tc) (h : r ∉ hostOps1_W) : StableHlo.after hostOps1 W (Proc.devRef .tc r) = W (Proc.devRef .tc r) :=
  StableHlo.after_of_writes_sub hostOps1 W hostOps1_writes h
theorem host1_prod : StableHlo.after hostOps1 W (Proc.devRef .tc main_v6_0) = W (Proc.devRef .tc main_v6_0) := host1_keep W _ (by decide)
theorem host1_w2d2 : StableHlo.after hostOps1 W (Proc.devRef .tc main_v3) = W (Proc.devRef .tc main_v3) := host1_keep W _ (by decide)

end Stretches

end Cert.KernelIdeal.Hand

end
-- ==== Proof.RI.HostVal.lean ====
import proofs.«162787_g2000605952690631_pallasbulk_304_2_alg».proof.Proof.Gen.ReferenceIdeal.Launch
import proofs.«162787_g2000605952690631_pallasbulk_304_2_alg».proof.Proof.Gen.ReferenceIdeal.Regions
import Idealize.ShloMosaic.Lib.StableHlo.Run

noncomputable section

namespace Cert.ReferenceIdeal.Hand

open Cert.ReferenceIdeal Cert.ReferenceIdeal.Gen
open Idealize.ShloMosaic Idealize.ShloMosaic.TcCoe
open Idealize.SL.Sem

variable {F : FTy → Type} [FloatOps F]

def w2d1 (x : Vec F S3x3x64x128 .f32) : Vec F S576x128 .f32 :=
  shapeCast S576x128 x shapeCasts_S3x3x64x128_S576x128

def w2d2 (x : Vec F S3x3x128x128 .f32) : Vec F S1152x128 .f32 :=
  shapeCast S1152x128 x shapeCasts_S3x3x128x128_S1152x128

def onesRow : Vec F S1x64 .f32 := broadcastInDim S1x64 ![] bcast_S_S1x64 (constant (F := F) S_ .f32 0x3F800000#32)
def zerosRow : Vec F S1x64 .f32 := broadcastInDim S1x64 ![] bcast_S_S1x64 (constant (F := F) S_ .f32 0x00000000#32)

-- A per-channel sum over the 100352 = 32 · 56 · 56 elements of a channel, divided by that count.
def bnMean (s : Vec F S1x128 .f32) : Vec F S1x128 .f32 :=
  Host.divf s (broadcastInDim S1x128 ![] bcast_S_S1x128 (constant (F := F) S_ .f32 0x47C40000#32))

-- g · rsqrt (max (E[x²] − E[x]², 0) + ε) per channel.
def bnScale (s sq : Vec F S1x128 .f32) (g : Vec F S128 .f32) : Vec F S1x128 .f32 :=
  mulf (shapeCast S1x128 g shapeCasts_S128_S1x128)
    (Host.rsqrt
      (addf
        (maximumf (subf (bnMean sq) (mulf (bnMean s) (bnMean s)))
          (broadcastInDim S1x128 ![] bcast_S_S1x128 (constant (F := F) S_ .f32 0x00000000#32)))
        (broadcastInDim S1x128 ![] bcast_S_S1x128 (constant (F := F) S_ .f32 0x3727C5AC#32))))

-- b − E[x] · scale per channel.
def bnShift (s sq : Vec F S1x128 .f32) (g b : Vec F S128 .f32) : Vec F S1x128 .f32 :=
  subf (shapeCast S1x128 b shapeCasts_S128_S1x128) (mulf (bnMean s) (bnScale s sq g))

-- The 128 channel entries repeated 56 times along a row of 7168.
def tileRow (r : Vec F S1x128 .f32) : Vec F S1x7168 .f32 :=
  shapeCast S1x7168
    (broadcastInDim S1x1x56x128 ![0, 1, 2, 3] bcast_S1x1x1x128_S1x1x56x128_0_1_2_3 (shapeCast S1x1x1x128 r shapeCasts_S1x128_S1x1x1x128))
    shapeCasts_S1x1x56x128_S1x7168

def flat3 (x : Vec F S32x56x56x128 .f32) : Vec F S32x56x7168 .f32 := shapeCast S32x56x7168 x shapeCasts_S32x56x56x128_S32x56x7168
def unflat (y : Vec F S32x56x7168 .f32) : Vec F S32x56x56x128 .f32 := shapeCast S32x56x56x128 y shapeCasts_S32x56x7168_S32x56x56x128

section Stretches

variable (W : Valuation τ sig (Elt F))

theorem host0_w2d1 : StableHlo.after hostOps0 W (Proc.devRef .tc main_v0) = w2d1 (W (Proc.devRef .tc main_arg1)) := by
  after_results_simp; rfl
theorem host0_w2d2 : StableHlo.after hostOps0 W (Proc.devRef .tc main_v1) = w2d2 (W (Proc.devRef .tc main_arg2)) := by
  after_results_simp; rfl
theorem host1_scale : StableHlo.after hostOps1 W (Proc.devRef .tc main_v17)
    = bnScale (W (Proc.devRef .tc main_v4_1)) (W (Proc.devRef .tc main_v4_2)) (W (Proc.devRef .tc main_arg3)) := by
  after_results_simp; rfl
theorem host1_shift : StableHlo.after hostOps1 W (Proc.devRef .tc main_v20)
    = bnShift (W (Proc.devRef .tc main_v4_1)) (W (Proc.devRef .tc main_v4_2)) (W (Proc.devRef .tc main_arg3)) (W (Proc.devRef .tc main_arg4)) := by
  after_results_simp; rfl

theorem host2_flat : StableHlo.after hostOps2 W (Proc.devRef .tc main_v38) = flat3 (W (Proc.devRef .tc main_v21_0)) := by
  after_results_simp; rfl
theorem host2_scale : StableHlo.after hostOps2 W (Proc.devRef .tc main_v41)
    = tileRow (bnScale (W (Proc.devRef .tc main_v21_1)) (W (Proc.devRef .tc main_v21_2)) (W (Proc.devRef .tc main_arg5))) := by
  after_results_simp; rfl
theorem host2_shift : StableHlo.after hostOps2 W (Proc.devRef .tc main_v44)
    = tileRow (bnShift (W (Proc.devRef .tc main_v21_1)) (W (Proc.devRef .tc main_v21_2)) (W (Proc.devRef .tc main_arg5)) (W (Proc.devRef .tc main_arg6))) := by
  after_results_simp; rfl

theorem host3_unflat : StableHlo.after hostOps3 W (Proc.devRef .tc main_v46) = unflat (W (Proc.devRef .tc main_v45)) := by
  after_results_simp; rfl

-- A stretch leaves every buffer outside its write set as it found it.
theorem host0_keep (r : Ref sig .tc) (h : r ∉ hostOps0_W) : StableHlo.after hostOps0 W (Proc.devRef .tc r) = W (Proc.devRef .tc r) :=
  StableHlo.after_of_writes_sub hostOps0 W hostOps0_writes h
theorem host1_keep (r : Ref sig .tc) (h : r ∉ hostOps1_W) : StableHlo.after hostOps1 W (Proc.devRef .tc r) = W (Proc.devRef .tc r) :=
  StableHlo.after_of_writes_sub hostOps1 W hostOps1_writes h
theorem host1_prod : StableHlo.after hostOps1 W (Proc.devRef .tc main_v4_0) = W (Proc.devRef .tc main_v4_0) := host1_keep W _ (by decide)
theorem host1_w2d2 : StableHlo.after hostOps1 W (Proc.devRef .tc main_v1) = W (Proc.devRef .tc main_v1) := host1_keep W _ (by decide)

end Stretches

end Cert.ReferenceIdeal.Hand

end
-- ==== Proof.LibOverlay.lean ====
import Idealize.ShloMosaic.Lib.Pipeline.FrameBody

noncomputable section

namespace Idealize.ShloMosaic.View

variable {sig : RefSig} {κ : Kind} {sp : Space} {s : Shape} {e : EltTy} {Val : EltTy → Type}

/-- The contents `X` overlaid by the pieces `L`, the list's head last. -/
def over (X : s.Idx → Val e) : List (Piece Val s e) → s.Idx → Val e
  | [] => X
  | p :: L => p.1.overlay (over X L) p.2

/-- Each write replaces what a view reads on its rectangle and nothing else. -/
theorem read_writes_eq_over (v : View sig κ sp s e) (f : v.ty.Contents Val) :
    ∀ L : List (Piece Val s e), v.read Val (v.writes Val f L) = over (v.read Val f) L
  | [] => by rw [writes_nil]; rfl
  | ⟨r, w⟩ :: L => by
    funext y
    by_cases hy : y ∈ r.set
    · obtain ⟨x, rfl⟩ : ∃ x, r.emb x = y := r.exists_idx_of_mem hy
      exact (read_writes_cons_emb v f r w L x).trans (r.overlay_emb _ w x).symm
    · rw [writes_cons, read_slice_write_of_not_mem r _ _ _ (by rwa [Rect.map_emb_univ]), read_writes_eq_over v f L]
      exact (r.overlay_of_not_mem _ w hy).symm

end Idealize.ShloMosaic.View

end
-- ==== Proof.KI.R0Step.lean ====
import proofs.«162787_g2000605952690631_pallasbulk_304_2_alg».proof.Proof.KI.R0Frame
import proofs.«162787_g2000605952690631_pallasbulk_304_2_alg».proof.Proof.LibOverlay

noncomputable section

namespace Cert.KernelIdeal.Hand

open Cert.KernelIdeal Cert.KernelIdeal.Gen Idealize.ShloMosaic Idealize.ShloMosaic.TcCoe Idealize.ShloMosaic.Tactic

variable {F : FTy → Type} [FloatOps F]

abbrev rInt0 : Rect S58x58x64 := Rect.unit (s := S58x58x64) ![1, 0, 0] S56x58x64.size inb_S58x58x64_S56x58x64_1_0_0
abbrev rAll0 : Rect S58x58x64 := Rect.unit (s := S58x58x64) ![0, 0, 0] S58x58x64.size inb_S58x58x64_S58x58x64_0_0_0
abbrev rX0 : Rect S1x56x56x64 := Rect.unit (s := S1x56x56x64) ![0, 0, 0, 0] S1x56x56x64.size inb_S1x56x56x64_S1x56x56x64_0_0_0_0
abbrev rW0 : Rect S576x128 := Rect.unit (s := S576x128) ![0, 0] S576x128.size inb_S576x128_S576x128_0_0
abbrev rO0 : Rect S1x56x56x128 := Rect.unit (s := S1x56x56x128) ![0, 0, 0, 0] S1x56x56x128.size inb_S1x56x56x128_S1x56x56x128_0_0_0_0
abbrev rS0 : Rect S1x128 := Rect.unit (s := S1x128) ![0, 0] S1x128.size inb_S1x128_S1x128_0_0
abbrev rT0_00 : Rect S58x58x64 := Rect.unit (s := S58x58x64) ![0, 0, 0] S56x56x64.size inb_S58x58x64_S56x56x64_0_0_0
abbrev rT0_01 : Rect S58x58x64 := Rect.unit (s := S58x58x64) ![0, 1, 0] S56x56x64.size inb_S58x58x64_S56x56x64_0_1_0
abbrev rT0_02 : Rect S58x58x64 := Rect.unit (s := S58x58x64) ![0, 2, 0] S56x56x64.size inb_S58x58x64_S56x56x64_0_2_0
abbrev rT0_10 : Rect S58x58x64 := Rect.unit (s := S58x58x64) ![1, 0, 0] S56x56x64.size inb_S58x58x64_S56x56x64_1_0_0
abbrev rT0_11 : Rect S58x58x64 := Rect.unit (s := S58x58x64) ![1, 1, 0] S56x56x64.size inb_S58x58x64_S56x56x64_1_1_0
abbrev rT0_12 : Rect S58x58x64 := Rect.unit (s := S58x58x64) ![1, 2, 0] S56x56x64.size inb_S58x58x64_S56x56x64_1_2_0
abbrev rT0_20 : Rect S58x58x64 := Rect.unit (s := S58x58x64) ![2, 0, 0] S56x56x64.size inb_S58x58x64_S56x56x64_2_0_0
abbrev rT0_21 : Rect S58x58x64 := Rect.unit (s := S58x58x64) ![2, 1, 0] S56x56x64.size inb_S58x58x64_S56x56x64_2_1_0
abbrev rT0_22 : Rect S58x58x64 := Rect.unit (s := S58x58x64) ![2, 2, 0] S56x56x64.size inb_S58x58x64_S56x56x64_2_2_0

-- The stored interior as one piece over the padded image.
def piece0 (old : Vec F S56x58x64 .bf16) (x2 : Vec F S1x56x56x64 .f32) : View.Piece (Elt F) S58x58x64 .bf16 :=
  ⟨rInt0, updateSlice old (k0_pay8 (View.ld x2 rX0)) ![0, 1, 0] slices_S56x58x64_S56x56x64_0_1_0⟩

-- The nine shifted loads of the padded image, side by side.
def taps0 (Gb Gi : Vec F S58x58x64 .bf16) : FVec F S3136x576 .bf16 :=
  k0_pay9 (View.ld Gb rT0_00) (View.ld Gb rT0_01) (View.ld Gb rT0_02) (View.ld Gi rT0_10) (View.ld Gi rT0_11) (View.ld Gi rT0_12) (View.ld Gb rT0_20) (View.ld Gb rT0_21) (View.ld Gb rT0_22)

-- What the first image leaves: the padded image and the sums start from their cleared values.
def stepA0 (x2 : Vec F S1x56x56x64 .f32) (x3 : Vec F S576x128 .bf16) :
    Vec F S1x56x56x128 .bf16 × Vec F S1x128 .f32 × Vec F S1x128 .f32 × Vec F S58x58x64 .bf16 :=
  let LS : List (View.Piece (Elt F) S58x58x64 .bf16) :=
    [piece0 (View.ld (View.canon [(⟨rAll0, k0_pay5⟩ : View.Piece (Elt F) S58x58x64 .bf16)]) rInt0) x2, ⟨rAll0, k0_pay5⟩]
  let T := taps0 (View.canon LS) (View.canon LS)
  let W := View.ld x3 rW0
  (View.canon [⟨rO0, k0_pay2 T W⟩],
   View.canon [⟨rS0, k0_pay3 T W (View.ld (View.canon [(⟨rS0, k0_pay6⟩ : View.Piece (Elt F) S1x128 .f32)]) rS0)⟩, ⟨rS0, k0_pay6⟩],
   View.canon [⟨rS0, k0_pay4 T W (View.ld (View.canon [(⟨rS0, k0_pay7⟩ : View.Piece (Elt F) S1x128 .f32)]) rS0)⟩, ⟨rS0, k0_pay7⟩],
   View.canon LS)

-- What a later image leaves, from the running sums and the old padded image.
def stepB0 (x2 : Vec F S1x56x56x64 .f32) (x3 : Vec F S576x128 .bf16) (xo5 xo6 : Vec F S1x128 .f32) (xs : Vec F S58x58x64 .bf16) :
    Vec F S1x56x56x128 .bf16 × Vec F S1x128 .f32 × Vec F S1x128 .f32 × Vec F S58x58x64 .bf16 :=
  let LS : List (View.Piece (Elt F) S58x58x64 .bf16) := [piece0 (View.ld xs rInt0) x2]
  let T := taps0 (View.over xs LS) (View.canon LS)
  let W := View.ld x3 rW0
  (View.canon [⟨rO0, k0_pay2 T W⟩],
   View.canon [⟨rS0, k0_pay3 T W (View.ld xo5 rS0)⟩],
   View.canon [⟨rS0, k0_pay4 T W (View.ld xo6 rS0)⟩],
   View.over xs LS)

section Forms

variable (V : (c : Dev nD) → (b : Ref sig .tc) → Buf (Elt F) ((c : Thread nD τ).loc b))

theorem outA0_eq (c : Dev nD) (t : Fin cfg0.N) (hc : cond0 (grid0.coords t)) :
    outA0 V c t hc = stepA0 (iblk0 V c 2 t) (iblk0 V c 3 t) := by
  unfold outA0 runA0 kernelRun0_A
  dsimp only
  sl_unfold_run_names
  simp only [View.read_writes_junk_eq_canon]
  simp only [View.readAt_eq_ld, Memref.IsWhole.read_unread, View.readCov_eq_canon']
  rfl

theorem outB0_eq (c : Dev nD) (t : Fin cfg0.N) (hc : ¬cond0 (grid0.coords t)) (xo5 xo6 : Vec F S1x128 .f32) (xs : Vec F S58x58x64 .bf16) :
    outB0 V c t hc xo5 xo6 xs = stepB0 (iblk0 V c 2 t) (iblk0 V c 3 t) xo5 xo6 xs := by
  have hxs := (Memref.isWhole_whole cc0_scratch0 : scM0.IsWhole).read_unread (Val := Elt F) xs
  dsimp only at hxs
  unfold outB0 runB0 kernelRun0_B
  dsimp only
  sl_unfold_run_names
  simp only [View.read_writes_junk_eq_canon]
  simp only [View.read_writes_eq_over, View.readAt_eq_ld, Memref.IsWhole.read_unread, View.readCov_eq_canon', hxs]
  rfl

end Forms

end Cert.KernelIdeal.Hand

end
-- ==== Proof.RI.R0Step.lean ====
import proofs.«162787_g2000605952690631_pallasbulk_304_2_alg».proof.Proof.RI.R0Frame
import proofs.«162787_g2000605952690631_pallasbulk_304_2_alg».proof.Proof.LibOverlay

noncomputable section

namespace Cert.ReferenceIdeal.Hand

open Cert.ReferenceIdeal Cert.ReferenceIdeal.Gen Idealize.ShloMosaic Idealize.ShloMosaic.TcCoe Idealize.ShloMosaic.Tactic

variable {F : FTy → Type} [FloatOps F]

abbrev rAll0 : Rect S58x58x64 := Rect.unit (s := S58x58x64) ![0, 0, 0] S58x58x64.size inb_S58x58x64_S58x58x64_0_0_0
abbrev rX0 : Rect S1x56x56x64 := Rect.unit (s := S1x56x56x64) ![0, 0, 0, 0] S1x56x56x64.size inb_S1x56x56x64_S1x56x56x64_0_0_0_0
abbrev rW0 : Rect S576x128 := Rect.unit (s := S576x128) ![0, 0] S576x128.size inb_S576x128_S576x128_0_0
abbrev rO0 : Rect S1x56x56x128 := Rect.unit (s := S1x56x56x128) ![0, 0, 0, 0] S1x56x56x128.size inb_S1x56x56x128_S1x56x56x128_0_0_0_0
abbrev rS0 : Rect S1x128 := Rect.unit (s := S1x128) ![0, 0] S1x128.size inb_S1x128_S1x128_0_0
abbrev rT0_00 : Rect S58x58x64 := Rect.unit (s := S58x58x64) ![0, 0, 0] S56x56x64.size inb_S58x58x64_S56x56x64_0_0_0
abbrev rT0_01 : Rect S58x58x64 := Rect.unit (s := S58x58x64) ![0, 1, 0] S56x56x64.size inb_S58x58x64_S56x56x64_0_1_0
abbrev rT0_02 : Rect S58x58x64 := Rect.unit (s := S58x58x64) ![0, 2, 0] S56x56x64.size inb_S58x58x64_S56x56x64_0_2_0
abbrev rT0_10 : Rect S58x58x64 := Rect.unit (s := S58x58x64) ![1, 0, 0] S56x56x64.size inb_S58x58x64_S56x56x64_1_0_0
abbrev rT0_11 : Rect S58x58x64 := Rect.unit (s := S58x58x64) ![1, 1, 0] S56x56x64.size inb_S58x58x64_S56x56x64_1_1_0
abbrev rT0_12 : Rect S58x58x64 := Rect.unit (s := S58x58x64) ![1, 2, 0] S56x56x64.size inb_S58x58x64_S56x56x64_1_2_0
abbrev rT0_20 : Rect S58x58x64 := Rect.unit (s := S58x58x64) ![2, 0, 0] S56x56x64.size inb_S58x58x64_S56x56x64_2_0_0
abbrev rT0_21 : Rect S58x58x64 := Rect.unit (s := S58x58x64) ![2, 1, 0] S56x56x64.size inb_S58x58x64_S56x56x64_2_1_0
abbrev rT0_22 : Rect S58x58x64 := Rect.unit (s := S58x58x64) ![2, 2, 0] S56x56x64.size inb_S58x58x64_S56x56x64_2_2_0

-- The stored interior as one piece over the padded image.
def piece0 (x2 : Vec F S1x56x56x64 .f32) : View.Piece (Elt F) S58x58x64 .f32 :=
  ⟨rT0_11, k0_pay8 (View.ld x2 rX0)⟩

-- The nine shifted loads of the padded image, side by side.
def taps0 (Gb Gi : Vec F S58x58x64 .f32) : FVec F S3136x576 .f32 :=
  k0_pay9 (View.ld Gb rT0_00) (View.ld Gb rT0_01) (View.ld Gb rT0_02) (View.ld Gb rT0_10) (View.ld Gi rT0_11) (View.ld Gb rT0_12) (View.ld Gb rT0_20) (View.ld Gb rT0_21) (View.ld Gb rT0_22)

-- What the first image leaves: the padded image and the sums start from their cleared values.
def stepA0 (x2 : Vec F S1x56x56x64 .f32) (x3 : Vec F S576x128 .f32) :
    Vec F S1x56x56x128 .f32 × Vec F S1x128 .f32 × Vec F S1x128 .f32 × Vec F S58x58x64 .f32 :=
  let LS : List (View.Piece (Elt F) S58x58x64 .f32) := [piece0 x2, ⟨rAll0, k0_pay5⟩]
  let T := taps0 (View.canon LS) (View.canon LS)
  let W := View.ld x3 rW0
  (View.canon [⟨rO0, k0_pay2 T W⟩],
   View.canon [⟨rS0, k0_pay3 T W (View.ld (View.canon [(⟨rS0, k0_pay6⟩ : View.Piece (Elt F) S1x128 .f32)]) rS0)⟩, ⟨rS0, k0_pay6⟩],
   View.canon [⟨rS0, k0_pay4 T W (View.ld (View.canon [(⟨rS0, k0_pay7⟩ : View.Piece (Elt F) S1x128 .f32)]) rS0)⟩, ⟨rS0, k0_pay7⟩],
   View.canon LS)

-- What a later image leaves, from the running sums and the old padded image.
def stepB0 (x2 : Vec F S1x56x56x64 .f32) (x3 : Vec F S576x128 .f32) (xo5 xo6 : Vec F S1x128 .f32) (xs : Vec F S58x58x64 .f32) :
    Vec F S1x56x56x128 .f32 × Vec F S1x128 .f32 × Vec F S1x128 .f32 × Vec F S58x58x64 .f32 :=
  let LS : List (View.Piece (Elt F) S58x58x64 .f32) := [piece0 x2]
  let T := taps0 (View.over xs LS) (View.canon LS)
  let W := View.ld x3 rW0
  (View.canon [⟨rO0, k0_pay2 T W⟩],
   View.canon [⟨rS0, k0_pay3 T W (View.ld xo5 rS0)⟩],
   View.canon [⟨rS0, k0_pay4 T W (View.ld xo6 rS0)⟩],
   View.over xs LS)

section Forms

variable (V : (c : Dev nD) → (b : Ref sig .tc) → Buf (Elt F) ((c : Thread nD τ).loc b))

theorem outA0_eq (c : Dev nD) (t : Fin cfg0.N) (hc : cond0 (grid0.coords t)) :
    outA0 V c t hc = stepA0 (iblk0 V c 2 t) (iblk0 V c 3 t) := by
  unfold outA0 runA0 kernelRun0_A
  dsimp only
  sl_unfold_run_names
  simp only [View.read_writes_junk_eq_canon]
  simp only [View.readAt_eq_ld, Memref.IsWhole.read_unread, View.readCov_eq_canon']
  rfl

theorem outB0_eq (c : Dev nD) (t : Fin cfg0.N) (hc : ¬cond0 (grid0.coords t)) (xo5 xo6 : Vec F S1x128 .f32) (xs : Vec F S58x58x64 .f32) :
    outB0 V c t hc xo5 xo6 xs = stepB0 (iblk0 V c 2 t) (iblk0 V c 3 t) xo5 xo6 xs := by
  have hxs := (Memref.isWhole_whole cc0_scratch0 : scM0.IsWhole).read_unread (Val := Elt F) xs
  dsimp only at hxs
  unfold outB0 runB0 kernelRun0_B
  dsimp only
  sl_unfold_run_names
  simp only [View.read_writes_junk_eq_canon]
  simp only [View.read_writes_eq_over, View.readAt_eq_ld, Memref.IsWhole.read_unread, View.readCov_eq_canon', hxs]
  rfl

end Forms

end Cert.ReferenceIdeal.Hand

end
-- ==== Proof.LibPad.lean ====
import proofs.«162787_g2000605952690631_pallasbulk_304_2_alg».proof.Proof.LibOverlay
import Idealize.ShloMosaic.Lib.Pipeline.Value

noncomputable section

namespace Idealize.ShloMosaic.View

variable {s : Shape} {e : EltTy} {Val : EltTy → Type}

theorem zero3 : (![0, 0, 0] : Fin 3 → ℕ) = fun _ => 0 := funext fun a => by fin_cases a <;> rfl

theorem canon_cons_eq_over [∀ e, Nonempty (Val e)] (p : Piece Val s e) (L : List (Piece Val s e)) :
    canon (p :: L) = over (canon L) [p] := rfl

/-- A block stored back with a sub-block replaced: the rest is rewritten with what it held, so only the sub-block changes. -/
theorem over_updateSlice {offB sizeB offS sizeS start : Fin s.rank → ℕ} {inbB inbS} (X : s.Idx → Val e)
    (v : (⟨s.rank, sizeS⟩ : Shape).Idx → Val e) (hsl : (⟨s.rank, sizeB⟩ : Shape).Slices start ⟨s.rank, sizeS⟩)
    (hoff : ∀ a, offS a = offB a + start a) :
    over X [⟨Rect.unit offB sizeB inbB, updateSlice (ld X (Rect.unit offB sizeB inbB)) v start hsl⟩]
      = over X [⟨Rect.unit offS sizeS inbS, v⟩] := by
  funext i
  by_cases hB : i ∈ (Rect.unit offB sizeB inbB).set
  · obtain ⟨x, rfl⟩ := (Rect.unit offB sizeB inbB).exists_idx_of_mem hB
    refine ((Rect.unit offB sizeB inbB).overlay_emb X _ x).trans ?_
    unfold updateSlice
    dsimp only
    split_ifs with hin
    · have key : ∀ j : (⟨s.rank, sizeS⟩ : Shape).Idx, (∀ a, (j a).val = (x a).val - start a) →
          v j = (Rect.unit offS sizeS inbS).overlay X v ((Rect.unit offB sizeB inbB).idx x) := fun j hj => by
        rw [show (Rect.unit offB sizeB inbB).idx x = (Rect.unit offS sizeS inbS).emb j from funext fun a => Fin.ext (by
          have := hj a; have := (hin a).1; have := hoff a
          show offB a + 1 * (x a).val = offS a + 1 * (j a).val; omega)]
        exact ((Rect.unit offS sizeS inbS).overlay_emb X v j).symm
      exact key _ fun a => rfl
    · refine ((Rect.unit offS sizeS inbS).overlay_of_not_mem X v fun hS => hin fun a => ?_).symm
      have h : offS a ≤ offB a + 1 * (x a).val ∧ offB a + 1 * (x a).val < offS a + sizeS a := Rect.mem_set_unit.mp hS a
      have := hoff a
      show start a ≤ (x a).val ∧ (x a).val < start a + sizeS a; omega
  · refine ((Rect.unit offB sizeB inbB).overlay_of_not_mem X _ hB).trans
      ((Rect.unit offS sizeS inbS).overlay_of_not_mem X v fun hS => hB (Rect.mem_set_unit.mpr fun a => ?_)).symm
    have := Rect.mem_set_unit.mp hS a; have := hoff a
    have : start a + sizeS a ≤ sizeB a := hsl.2 a
    omega

/-- A load inside the one piece stored reads that piece, whatever lay underneath. -/
theorem ld_canon_single_eq_ld_over [∀ e, Nonempty (Val e)] (X : s.Idx → Val e) (q : Rect s) (w : q.shape.Idx → Val e)
    (r : Rect s) (h : ∀ j : r.shape.Idx, r.emb j ∈ q.set) : ld (canon [⟨q, w⟩]) r = ld (over X [⟨q, w⟩]) r := by
  funext j
  obtain ⟨x, hx⟩ := q.exists_idx_of_mem (h j)
  show q.overlay _ w (r.idx j) = q.overlay X w (r.idx j)
  rw [show r.idx j = q.emb x from hx.symm, Rect.overlay_emb, Rect.overlay_emb]

theorem unit_emb_mem_unit {off size off' size' : Fin s.rank → ℕ} {inb inb'}
    (h : ∀ a, off' a ≤ off a ∧ off a + size a ≤ off' a + size' a) (j : (Rect.unit (s := s) off size inb).shape.Idx) :
    (Rect.unit off size inb).emb j ∈ (Rect.unit off' size' inb').set :=
  Rect.mem_set_unit.mpr fun a => by
    have := h a; have : (j a).val < size a := (j a).isLt
    show off' a ≤ off a + 1 * (j a).val ∧ off a + 1 * (j a).val < off' a + size' a; omega

end Idealize.ShloMosaic.View

end
-- ==== Proof.BridgeR0.lean ====
import proofs.«162787_g2000605952690631_pallasbulk_304_2_alg».proof.Proof.KI.R0Step
import proofs.«162787_g2000605952690631_pallasbulk_304_2_alg».proof.Proof.RI.R0Step
import proofs.«162787_g2000605952690631_pallasbulk_304_2_alg».proof.Proof.LibPad
import Idealize.ShloMosaic.Lib.IdealHost

noncomputable section

namespace Cert.Bridge

open Idealize.ShloMosaic

/-- Both zero words are the extended real 0. -/
theorem pay5_eq : Cert.KernelIdeal.Gen.k0_pay5 (F := Ideal) = Cert.ReferenceIdeal.Gen.k0_pay5 (F := Ideal) :=
  funext fun _ => Ideal.ofBits_zero_bf16.trans Ideal.ofBits_zero_f32.symm

/-- Rows 1..56 stored back with columns 1..56 replaced leave the image with the block stored at (1, 1). -/
theorem padK_eq (xs : Cert.ReferenceIdeal.S58x58x64.Idx → EReal) (x2 : Cert.ReferenceIdeal.S1x56x56x64.Idx → EReal) :
    View.over (Val := Elt Ideal) (e := .bf16) xs [Cert.KernelIdeal.Hand.piece0 (F := Ideal) (View.ld (Val := Elt Ideal) (e' := .bf16) xs Cert.KernelIdeal.Hand.rInt0) x2]
      = View.over (Val := Elt Ideal) (e := .f32) xs [Cert.ReferenceIdeal.Hand.piece0 (F := Ideal) x2] := by
  unfold Cert.KernelIdeal.Hand.piece0 Cert.ReferenceIdeal.Hand.piece0
  exact View.over_updateSlice (Val := Elt Ideal) (e := .bf16) xs _ Cert.KernelIdeal.Gen.slices_S56x58x64_S56x56x64_0_1_0 (by decide)

/-- The same over the cleared image. -/
theorem canonK_eq (x2 : Cert.ReferenceIdeal.S1x56x56x64.Idx → EReal) :
    View.canon (Val := Elt Ideal) (e := .bf16) [Cert.KernelIdeal.Hand.piece0 (F := Ideal) (View.ld (Val := Elt Ideal) (e' := .bf16) (View.canon (Val := Elt Ideal) [(⟨Cert.KernelIdeal.Hand.rAll0, Cert.KernelIdeal.Gen.k0_pay5 (F := Ideal)⟩ : View.Piece (Elt Ideal) Cert.KernelIdeal.S58x58x64 .bf16)]) Cert.KernelIdeal.Hand.rInt0) x2, ⟨Cert.KernelIdeal.Hand.rAll0, Cert.KernelIdeal.Gen.k0_pay5 (F := Ideal)⟩]
      = View.canon (Val := Elt Ideal) (e := .f32) [Cert.ReferenceIdeal.Hand.piece0 (F := Ideal) x2, ⟨Cert.ReferenceIdeal.Hand.rAll0, Cert.ReferenceIdeal.Gen.k0_pay5 (F := Ideal)⟩] := by
  rw [View.canon_cons_eq_over, padK_eq, View.canon_unit_zero View.zero3, pay5_eq, View.canon_cons_eq_over, View.canon_unit_zero View.zero3]

/-- The taps read off the stored piece alone lie inside it, so all nine are windows of the one padded image. -/
theorem taps0_eq (xs : Cert.ReferenceIdeal.S58x58x64.Idx → EReal) (x2 : Cert.ReferenceIdeal.S1x56x56x64.Idx → EReal) :
    Cert.KernelIdeal.Hand.taps0 (F := Ideal)
        (View.over (Val := Elt Ideal) (e := .bf16) xs [Cert.KernelIdeal.Hand.piece0 (F := Ideal) (View.ld (Val := Elt Ideal) (e' := .bf16) xs Cert.KernelIdeal.Hand.rInt0) x2])
        (View.canon (Val := Elt Ideal) (e := .bf16) [Cert.KernelIdeal.Hand.piece0 (F := Ideal) (View.ld (Val := Elt Ideal) (e' := .bf16) xs Cert.KernelIdeal.Hand.rInt0) x2])
      = Cert.ReferenceIdeal.Hand.taps0 (F := Ideal)
        (View.over (Val := Elt Ideal) (e := .f32) xs [Cert.ReferenceIdeal.Hand.piece0 (F := Ideal) x2])
        (View.canon (Val := Elt Ideal) (e := .f32) [Cert.ReferenceIdeal.Hand.piece0 (F := Ideal) x2]) := by
  have hP := padK_eq xs x2
  unfold Cert.KernelIdeal.Hand.piece0 Cert.ReferenceIdeal.Hand.piece0 at hP
  unfold Cert.KernelIdeal.Hand.taps0 Cert.ReferenceIdeal.Hand.taps0 Cert.KernelIdeal.Hand.piece0 Cert.ReferenceIdeal.Hand.piece0
  rw [View.ld_canon_single_eq_ld_over (Val := Elt Ideal) (e := .bf16) xs Cert.KernelIdeal.Hand.rInt0 _ Cert.KernelIdeal.Hand.rT0_10 (View.unit_emb_mem_unit (by decide)),
    View.ld_canon_single_eq_ld_over (Val := Elt Ideal) (e := .bf16) xs Cert.KernelIdeal.Hand.rInt0 _ Cert.KernelIdeal.Hand.rT0_11 (View.unit_emb_mem_unit (by decide)),
    View.ld_canon_single_eq_ld_over (Val := Elt Ideal) (e := .bf16) xs Cert.KernelIdeal.Hand.rInt0 _ Cert.KernelIdeal.Hand.rT0_12 (View.unit_emb_mem_unit (by decide)),
    View.ld_canon_single_eq_ld_over (Val := Elt Ideal) (e := .f32) xs Cert.ReferenceIdeal.Hand.rT0_11 _ Cert.ReferenceIdeal.Hand.rT0_11 Cert.ReferenceIdeal.Hand.rT0_11.toLoadRect.idx_mem, hP]
  rfl

theorem stepB0_eq (x2 : Cert.ReferenceIdeal.S1x56x56x64.Idx → EReal) (x3 : Cert.ReferenceIdeal.S576x128.Idx → EReal)
    (xo5 xo6 : Cert.ReferenceIdeal.S1x128.Idx → EReal) (xs : Cert.ReferenceIdeal.S58x58x64.Idx → EReal) :
    Cert.KernelIdeal.Hand.stepB0 (F := Ideal) x2 x3 xo5 xo6 xs = Cert.ReferenceIdeal.Hand.stepB0 (F := Ideal) x2 x3 xo5 xo6 xs := by
  unfold Cert.KernelIdeal.Hand.stepB0 Cert.ReferenceIdeal.Hand.stepB0
  dsimp only
  rw [taps0_eq, padK_eq]
  rfl

theorem stepA0_eq (x2 : Cert.ReferenceIdeal.S1x56x56x64.Idx → EReal) (x3 : Cert.ReferenceIdeal.S576x128.Idx → EReal) :
    Cert.KernelIdeal.Hand.stepA0 (F := Ideal) x2 x3 = Cert.ReferenceIdeal.Hand.stepA0 (F := Ideal) x2 x3 := by
  unfold Cert.KernelIdeal.Hand.stepA0 Cert.ReferenceIdeal.Hand.stepA0
  dsimp only
  rw [canonK_eq]
  rfl

end Cert.Bridge

end
-- ==== Proof.KI.R01Blocks.lean ====
import proofs.«162787_g2000605952690631_pallasbulk_304_2_alg».proof.Proof.KI.R0Frame
import proofs.«162787_g2000605952690631_pallasbulk_304_2_alg».proof.Proof.KI.R1Frame
import Idealize.ShloMosaic.Lib.Pipeline.Value
import Idealize.ShloMosaic.Lib.ValueIdx

namespace Cert.KernelIdeal.Hand

open Cert.KernelIdeal Cert.KernelIdeal.Gen Idealize.ShloMosaic Idealize.ShloMosaic.TcCoe
open Idealize.ShloMosaic.ValueIdx (ix4)

variable {F : FTy → Type} [FloatOps F]
variable (V : (c : Dev nD) → (b : Ref sig .tc) → Buf (Elt F) ((c : Thread nD τ).loc b))

-- Decided by evaluating each index map at the 32 points.
theorem idx0_2 : ∀ t : Fin cfg0.N, win0_2.index t (0 : Fin 4) = t.val ∧ win0_2.index t (1 : Fin 4) = 0
    ∧ win0_2.index t (2 : Fin 4) = 0 ∧ win0_2.index t (3 : Fin 4) = 0 :=
  (by decide +kernel : ∀ t : Fin grid0.N, _)

theorem idx0_3 : ∀ (t : Fin cfg0.N) (a : Fin 2), win0_3.index t a = 0 :=
  (by decide +kernel : ∀ (t : Fin grid0.N) (a : Fin 2), _)

-- Each coordinate is the block index times the block extent plus the offset inside the block.
theorem iblk0_2_at (c : Dev nD) (t : Fin cfg0.N) (h w : Fin 56) (ch : Fin 64) :
    iblk0 V c 2 t (ix4 0 h w ch) = V c main_arg0 (ix4 ⟨t.val, lt_of_lt_of_eq t.isLt N_0⟩ h w ch) := by
  obtain ⟨e0, e1, e2, e3⟩ := idx0_2 t
  show V c main_arg0 (((cfg0.win 2).blk t).view.emb (ix4 0 h w ch)) = V c main_arg0 _
  refine congrArg _ (funext fun a => Fin.ext ?_)
  match a with
  | ⟨0, _⟩ => show win0_2.index t (0 : Fin 4) * 1 + 1 * 0 = t.val; omega
  | ⟨1, _⟩ => exact win0_2.rect_emb_val_of_index_zero t (1 : Fin 4) e1 _
  | ⟨2, _⟩ => exact win0_2.rect_emb_val_of_index_zero t (2 : Fin 4) e2 _
  | ⟨3, _⟩ => exact win0_2.rect_emb_val_of_index_zero t (3 : Fin 4) e3 _

-- With block index zero on every axis an element keeps its coordinates.
theorem iblk0_3_eq (c : Dev nD) (t : Fin cfg0.N) : (iblk0 V c 3 t : S576x128.Idx → Elt F .bf16) = V c main_v1 := by
  funext j
  show V c main_v1 (((cfg0.win 3).blk t).view.emb j) = V c main_v1 j
  exact congrArg _ (funext fun a => Fin.ext (win0_3.rect_emb_val_of_index_zero t a (idx0_3 t a) j))

theorem idx1_0 : ∀ (t : Fin cfg1.N) (a : Fin 2), win1_0.index t a = 0 :=
  (by decide +kernel : ∀ (t : Fin grid1.N) (a : Fin 2), _)

theorem idx1_1 : ∀ (t : Fin cfg1.N) (a : Fin 2), win1_1.index t a = 0 :=
  (by decide +kernel : ∀ (t : Fin grid1.N) (a : Fin 2), _)

theorem idx1_2 : ∀ t : Fin cfg1.N, win1_2.index t (0 : Fin 4) = t.val ∧ win1_2.index t (1 : Fin 4) = 0
    ∧ win1_2.index t (2 : Fin 4) = 0 ∧ win1_2.index t (3 : Fin 4) = 0 :=
  (by decide +kernel : ∀ t : Fin grid1.N, _)

theorem idx1_3 : ∀ (t : Fin cfg1.N) (a : Fin 2), win1_3.index t a = 0 :=
  (by decide +kernel : ∀ (t : Fin grid1.N) (a : Fin 2), _)

theorem iblk1_2_at (c : Dev nD) (t : Fin cfg1.N) (h w : Fin 56) (ch : Fin 128) :
    iblk1 V c 2 t (ix4 0 h w ch) = V c main_v6_0 (ix4 ⟨t.val, lt_of_lt_of_eq t.isLt N_1⟩ h w ch) := by
  obtain ⟨e0, e1, e2, e3⟩ := idx1_2 t
  show V c main_v6_0 (((cfg1.win 2).blk t).view.emb (ix4 0 h w ch)) = V c main_v6_0 _
  refine congrArg _ (funext fun a => Fin.ext ?_)
  match a with
  | ⟨0, _⟩ => show win1_2.index t (0 : Fin 4) * 1 + 1 * 0 = t.val; omega
  | ⟨1, _⟩ => exact win1_2.rect_emb_val_of_index_zero t (1 : Fin 4) e1 _
  | ⟨2, _⟩ => exact win1_2.rect_emb_val_of_index_zero t (2 : Fin 4) e2 _
  | ⟨3, _⟩ => exact win1_2.rect_emb_val_of_index_zero t (3 : Fin 4) e3 _

theorem iblk1_3_eq (c : Dev nD) (t : Fin cfg1.N) : (iblk1 V c 3 t : S1152x128.Idx → Elt F .bf16) = V c main_v3 := by
  funext j
  show V c main_v3 (((cfg1.win 3).blk t).view.emb j) = V c main_v3 j
  exact congrArg _ (funext fun a => Fin.ext (win1_3.rect_emb_val_of_index_zero t a (idx1_3 t a) j))

theorem iblk1_0_eq (c : Dev nD) (t : Fin cfg1.N) : (iblk1 V c 0 t : S1x128.Idx → Elt F .f32) = V c main_v19 := by
  funext j
  show V c main_v19 (((cfg1.win 0).blk t).view.emb j) = V c main_v19 j
  exact congrArg _ (funext fun a => Fin.ext (win1_0.rect_emb_val_of_index_zero t a (idx1_0 t a) j))

theorem iblk1_1_eq (c : Dev nD) (t : Fin cfg1.N) : (iblk1 V c 1 t : S1x128.Idx → Elt F .f32) = V c main_v22 := by
  funext j
  show V c main_v22 (((cfg1.win 1).blk t).view.emb j) = V c main_v22 j
  exact congrArg _ (funext fun a => Fin.ext (win1_1.rect_emb_val_of_index_zero t a (idx1_1 t a) j))

end Cert.KernelIdeal.Hand
-- ==== Proof.RI.R01Blocks.lean ====
import proofs.«162787_g2000605952690631_pallasbulk_304_2_alg».proof.Proof.RI.R0Frame
import proofs.«162787_g2000605952690631_pallasbulk_304_2_alg».proof.Proof.RI.R1Frame
import Idealize.ShloMosaic.Lib.Pipeline.Value
import Idealize.ShloMosaic.Lib.ValueIdx

namespace Cert.ReferenceIdeal.Hand

open Cert.ReferenceIdeal Cert.ReferenceIdeal.Gen Idealize.ShloMosaic Idealize.ShloMosaic.TcCoe
open Idealize.ShloMosaic.ValueIdx (ix4)

variable {F : FTy → Type} [FloatOps F]
variable (V : (c : Dev nD) → (b : Ref sig .tc) → Buf (Elt F) ((c : Thread nD τ).loc b))

-- Decided by evaluating each index map at the 32 points.
theorem idx0_2 : ∀ t : Fin cfg0.N, win0_2.index t (0 : Fin 4) = t.val ∧ win0_2.index t (1 : Fin 4) = 0
    ∧ win0_2.index t (2 : Fin 4) = 0 ∧ win0_2.index t (3 : Fin 4) = 0 :=
  (by decide +kernel : ∀ t : Fin grid0.N, _)

theorem idx0_3 : ∀ (t : Fin cfg0.N) (a : Fin 2), win0_3.index t a = 0 :=
  (by decide +kernel : ∀ (t : Fin grid0.N) (a : Fin 2), _)

-- Each coordinate is the block index times the block extent plus the offset inside the block.
theorem iblk0_2_at (c : Dev nD) (t : Fin cfg0.N) (h w : Fin 56) (ch : Fin 64) :
    iblk0 V c 2 t (ix4 0 h w ch) = V c main_arg0 (ix4 ⟨t.val, lt_of_lt_of_eq t.isLt N_0⟩ h w ch) := by
  obtain ⟨e0, e1, e2, e3⟩ := idx0_2 t
  show V c main_arg0 (((cfg0.win 2).blk t).view.emb (ix4 0 h w ch)) = V c main_arg0 _
  refine congrArg _ (funext fun a => Fin.ext ?_)
  match a with
  | ⟨0, _⟩ => show win0_2.index t (0 : Fin 4) * 1 + 1 * 0 = t.val; omega
  | ⟨1, _⟩ => exact win0_2.rect_emb_val_of_index_zero t (1 : Fin 4) e1 _
  | ⟨2, _⟩ => exact win0_2.rect_emb_val_of_index_zero t (2 : Fin 4) e2 _
  | ⟨3, _⟩ => exact win0_2.rect_emb_val_of_index_zero t (3 : Fin 4) e3 _

-- With block index zero on every axis an element keeps its coordinates.
theorem iblk0_3_eq (c : Dev nD) (t : Fin cfg0.N) : (iblk0 V c 3 t : S576x128.Idx → Elt F .f32) = V c main_v0 := by
  funext j
  show V c main_v0 (((cfg0.win 3).blk t).view.emb j) = V c main_v0 j
  exact congrArg _ (funext fun a => Fin.ext (win0_3.rect_emb_val_of_index_zero t a (idx0_3 t a) j))

theorem idx1_0 : ∀ (t : Fin cfg1.N) (a : Fin 2), win1_0.index t a = 0 :=
  (by decide +kernel : ∀ (t : Fin grid1.N) (a : Fin 2), _)

theorem idx1_1 : ∀ (t : Fin cfg1.N) (a : Fin 2), win1_1.index t a = 0 :=
  (by decide +kernel : ∀ (t : Fin grid1.N) (a : Fin 2), _)

theorem idx1_2 : ∀ t : Fin cfg1.N, win1_2.index t (0 : Fin 4) = t.val ∧ win1_2.index t (1 : Fin 4) = 0
    ∧ win1_2.index t (2 : Fin 4) = 0 ∧ win1_2.index t (3 : Fin 4) = 0 :=
  (by decide +kernel : ∀ t : Fin grid1.N, _)

theorem idx1_3 : ∀ (t : Fin cfg1.N) (a : Fin 2), win1_3.index t a = 0 :=
  (by decide +kernel : ∀ (t : Fin grid1.N) (a : Fin 2), _)

theorem iblk1_2_at (c : Dev nD) (t : Fin cfg1.N) (h w : Fin 56) (ch : Fin 128) :
    iblk1 V c 2 t (ix4 0 h w ch) = V c main_v4_0 (ix4 ⟨t.val, lt_of_lt_of_eq t.isLt N_1⟩ h w ch) := by
  obtain ⟨e0, e1, e2, e3⟩ := idx1_2 t
  show V c main_v4_0 (((cfg1.win 2).blk t).view.emb (ix4 0 h w ch)) = V c main_v4_0 _
  refine congrArg _ (funext fun a => Fin.ext ?_)
  match a with
  | ⟨0, _⟩ => show win1_2.index t (0 : Fin 4) * 1 + 1 * 0 = t.val; omega
  | ⟨1, _⟩ => exact win1_2.rect_emb_val_of_index_zero t (1 : Fin 4) e1 _
  | ⟨2, _⟩ => exact win1_2.rect_emb_val_of_index_zero t (2 : Fin 4) e2 _
  | ⟨3, _⟩ => exact win1_2.rect_emb_val_of_index_zero t (3 : Fin 4) e3 _

theorem iblk1_3_eq (c : Dev nD) (t : Fin cfg1.N) : (iblk1 V c 3 t : S1152x128.Idx → Elt F .f32) = V c main_v1 := by
  funext j
  show V c main_v1 (((cfg1.win 3).blk t).view.emb j) = V c main_v1 j
  exact congrArg _ (funext fun a => Fin.ext (win1_3.rect_emb_val_of_index_zero t a (idx1_3 t a) j))

theorem iblk1_0_eq (c : Dev nD) (t : Fin cfg1.N) : (iblk1 V c 0 t : S1x128.Idx → Elt F .f32) = V c main_v17 := by
  funext j
  show V c main_v17 (((cfg1.win 0).blk t).view.emb j) = V c main_v17 j
  exact congrArg _ (funext fun a => Fin.ext (win1_0.rect_emb_val_of_index_zero t a (idx1_0 t a) j))

theorem iblk1_1_eq (c : Dev nD) (t : Fin cfg1.N) : (iblk1 V c 1 t : S1x128.Idx → Elt F .f32) = V c main_v20 := by
  funext j
  show V c main_v20 (((cfg1.win 1).blk t).view.emb j) = V c main_v20 j
  exact congrArg _ (funext fun a => Fin.ext (win1_1.rect_emb_val_of_index_zero t a (idx1_1 t a) j))

end Cert.ReferenceIdeal.Hand
-- ==== Proof.KI.R01Arrays.lean ====
import proofs.«162787_g2000605952690631_pallasbulk_304_2_alg».proof.Proof.KI.R0Frame
import proofs.«162787_g2000605952690631_pallasbulk_304_2_alg».proof.Proof.KI.R1Frame
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe
open Idealize.ShloMosaic.ValueIdx (ix4 eq_ix4)

variable {F : FTy → Type} [FloatOps F]
variable (V : (c : Dev nD) → (b : Ref sig .tc) → Buf (Elt F) ((c : Thread nD τ).loc b))

-- The leading axis has extent one.
theorem blk_ix4 (j : S1x56x56x128.Idx) : j = ix4 (0 : Fin 1) (j 1) (j 2) (j 3) :=
  (eq_ix4 j).trans (by rw [Fin.eq_zero (j 0)]; rfl)

theorem lt31_0 : 31 < cfg0.N := lt_of_lt_of_eq (by decide : (31 : ℕ) < 32) N_0.symm

theorem outsAt0_congr (c : Dev nD) {n n' : ℕ} (h : n = n') (hn : n < cfg0.N) (hn' : n' < cfg0.N) :
    outsAt0 V c n hn = outsAt0 V c n' hn' := by
  subst h; rfl

theorem idx0_4 : ∀ t : Fin cfg0.N, win0_4.index t (0 : Fin 4) = t.val ∧ win0_4.index t (1 : Fin 4) = 0
    ∧ win0_4.index t (2 : Fin 4) = 0 ∧ win0_4.index t (3 : Fin 4) = 0 :=
  (by decide +kernel : ∀ t : Fin grid0.N, _)

theorem idx0_5 : ∀ (t : Fin cfg0.N) (a : Fin 2), win0_5.index t a = 0 :=
  (by decide +kernel : ∀ (t : Fin grid0.N) (a : Fin 2), _)

theorem idx0_6 : ∀ (t : Fin cfg0.N) (a : Fin 2), win0_6.index t a = 0 :=
  (by decide +kernel : ∀ (t : Fin grid0.N) (a : Fin 2), _)

-- Each coordinate is the block index times the block extent plus the offset inside the block.
theorem emb0_4 (t : Fin cfg0.N) (j : S1x56x56x128.Idx) :
    ((cfg0.win 4).blk t).view.emb j = ix4 (⟨t.val, lt_of_lt_of_eq t.isLt N_0⟩ : Fin 32) (j 1) (j 2) (j 3) := by
  obtain ⟨e0, e1, e2, e3⟩ := idx0_4 t
  have : (j 0).val < 1 := (j 0).isLt
  funext a; apply Fin.ext
  match a with
  | ⟨0, _⟩ => show win0_4.index t (0 : Fin 4) * 1 + 1 * (j 0).val = t.val; omega
  | ⟨1, _⟩ => exact win0_4.rect_emb_val_of_index_zero t (1 : Fin 4) e1 j
  | ⟨2, _⟩ => exact win0_4.rect_emb_val_of_index_zero t (2 : Fin 4) e2 j
  | ⟨3, _⟩ => exact win0_4.rect_emb_val_of_index_zero t (3 : Fin 4) e3 j

-- Image n of this function is what point n stored.
def prodArr0 (c : Dev nD) : S32x56x56x128.Idx → Elt F .bf16 := fun i =>
  (outsAt0 V c (i 0).val (lt_of_lt_of_eq (i 0).isLt N_0.symm)).1 (ix4 (0 : Fin 1) (i 1) (i 2) (i 3))

theorem flushed0_4 (c : Dev nD) (t : Fin cfg0.N) :
    (dat0 V c).flushed 4 t = ((cfg0.win 4).blk t).view.read (Elt F) (prodArr0 V c) := by
  show (cfg0.win 4).cut (grid0.coords t) ((dat0 V c).after 4 t) = _
  rw [after0_4]
  funext j
  show (outsAt0 V c t.val t.isLt).1 j = prodArr0 V c (((cfg0.win 4).blk t).view.emb j)
  rw [emb0_4 t j]
  exact congrArg _ (blk_ix4 j)

-- Each point writes back its own block of that function; a later point writes elsewhere.
theorem final0_4 (c : Dev nD) (n : Fin 32) (h w : Fin 56) (ch : Fin 128) :
    (dat0 V c).arrAt 4 cfg0.N (ix4 n h w ch) = (outsAt0 V c n.val (lt_of_lt_of_eq n.isLt N_0.symm)).1 (ix4 0 h w ch) := by
  have hn : n.val < cfg0.N := lt_of_lt_of_eq n.isLt N_0.symm
  have e : ((cfg0.win 4).blk ⟨n.val, hn⟩).view.emb (ix4 (0 : Fin 1) h w ch) = ix4 n h w ch := emb0_4 ⟨n.val, hn⟩ _
  exact (dat0 V c).arrAt_apply_of_mem 4 (prodArr0 V c) (fun t _ => flushed0_4 V c t) cfg0.N ⟨n.val, hn⟩ (ix4 n h w ch) hn
    (flush0_4 _) (by rw [← e]; exact View.emb_mem_set _ _)

-- With block index zero on every axis an element keeps its coordinates.
theorem emb0_5 (t : Fin cfg0.N) (j : S1x128.Idx) : ((cfg0.win 5).blk t).view.emb j = j :=
  funext fun a => Fin.ext (win0_5.rect_emb_val_of_index_zero t a (idx0_5 t a) j)

theorem cut0_5 (t : Fin cfg0.N) (X : Vec F S1x128 .f32) :
    (cfg0.win 5).cut (grid0.coords t) X = ((cfg0.win 5).blk t).view.read (Elt F) X :=
  funext fun j => congrArg X (emb0_5 t j).symm

-- The last point's block is the whole array.
theorem flushed0_5 (c : Dev nD) (t : Fin cfg0.N) (hf : (cfg0.win 5).flush t = true) :
    (dat0 V c).flushed 5 t = ((cfg0.win 5).blk t).view.read (Elt F) (outsAt0 V c 31 lt31_0).2.1 := by
  have hN : cfg0.N = 32 := N_0
  have h31 : t.val = 31 := by have := (flush0_5 t).mp hf; have := t.isLt; omega
  show (cfg0.win 5).cut _ ((dat0 V c).after 5 t) = _
  rw [after0_5, outsAt0_congr V c h31 _ lt31_0]
  exact cut0_5 t _

-- That one block covers the array.
theorem final0_5 (c : Dev nD) : (dat0 V c).arrAt 5 cfg0.N = (outsAt0 V c 31 (by rw [show cfg0.N = 32 from N_0]; decide)).2.1 :=
  (dat0 V c).arrAt_eq_of_cover 5 _ (flushed0_5 V c) fun i =>
    ⟨⟨31, lt31_0⟩, (flush0_5 _).mpr rfl, by rw [← emb0_5 ⟨31, lt31_0⟩ i]; exact View.emb_mem_set _ _⟩

theorem emb0_6 (t : Fin cfg0.N) (j : S1x128.Idx) : ((cfg0.win 6).blk t).view.emb j = j :=
  funext fun a => Fin.ext (win0_6.rect_emb_val_of_index_zero t a (idx0_6 t a) j)

theorem cut0_6 (t : Fin cfg0.N) (X : Vec F S1x128 .f32) :
    (cfg0.win 6).cut (grid0.coords t) X = ((cfg0.win 6).blk t).view.read (Elt F) X :=
  funext fun j => congrArg X (emb0_6 t j).symm

theorem flushed0_6 (c : Dev nD) (t : Fin cfg0.N) (hf : (cfg0.win 6).flush t = true) :
    (dat0 V c).flushed 6 t = ((cfg0.win 6).blk t).view.read (Elt F) (outsAt0 V c 31 lt31_0).2.2.1 := by
  have hN : cfg0.N = 32 := N_0
  have h31 : t.val = 31 := by have := (flush0_6 t).mp hf; have := t.isLt; omega
  show (cfg0.win 6).cut _ ((dat0 V c).after 6 t) = _
  rw [after0_6, outsAt0_congr V c h31 _ lt31_0]
  exact cut0_6 t _

theorem final0_6 (c : Dev nD) : (dat0 V c).arrAt 6 cfg0.N = (outsAt0 V c 31 (by rw [show cfg0.N = 32 from N_0]; decide)).2.2.1 :=
  (dat0 V c).arrAt_eq_of_cover 6 _ (flushed0_6 V c) fun i =>
    ⟨⟨31, lt31_0⟩, (flush0_6 _).mpr rfl, by rw [← emb0_6 ⟨31, lt31_0⟩ i]; exact View.emb_mem_set _ _⟩

theorem lt31_1 : 31 < cfg1.N := lt_of_lt_of_eq (by decide : (31 : ℕ) < 32) N_1.symm

theorem outsAt1_congr (c : Dev nD) {n n' : ℕ} (h : n = n') (hn : n < cfg1.N) (hn' : n' < cfg1.N) :
    outsAt1 V c n hn = outsAt1 V c n' hn' := by
  subst h; rfl

theorem idx1_4 : ∀ t : Fin cfg1.N, win1_4.index t (0 : Fin 4) = t.val ∧ win1_4.index t (1 : Fin 4) = 0
    ∧ win1_4.index t (2 : Fin 4) = 0 ∧ win1_4.index t (3 : Fin 4) = 0 :=
  (by decide +kernel : ∀ t : Fin grid1.N, _)

theorem idx1_5 : ∀ (t : Fin cfg1.N) (a : Fin 2), win1_5.index t a = 0 :=
  (by decide +kernel : ∀ (t : Fin grid1.N) (a : Fin 2), _)

theorem idx1_6 : ∀ (t : Fin cfg1.N) (a : Fin 2), win1_6.index t a = 0 :=
  (by decide +kernel : ∀ (t : Fin grid1.N) (a : Fin 2), _)

theorem emb1_4 (t : Fin cfg1.N) (j : S1x56x56x128.Idx) :
    ((cfg1.win 4).blk t).view.emb j = ix4 (⟨t.val, lt_of_lt_of_eq t.isLt N_1⟩ : Fin 32) (j 1) (j 2) (j 3) := by
  obtain ⟨e0, e1, e2, e3⟩ := idx1_4 t
  have : (j 0).val < 1 := (j 0).isLt
  funext a; apply Fin.ext
  match a with
  | ⟨0, _⟩ => show win1_4.index t (0 : Fin 4) * 1 + 1 * (j 0).val = t.val; omega
  | ⟨1, _⟩ => exact win1_4.rect_emb_val_of_index_zero t (1 : Fin 4) e1 j
  | ⟨2, _⟩ => exact win1_4.rect_emb_val_of_index_zero t (2 : Fin 4) e2 j
  | ⟨3, _⟩ => exact win1_4.rect_emb_val_of_index_zero t (3 : Fin 4) e3 j

def prodArr1 (c : Dev nD) : S32x56x56x128.Idx → Elt F .bf16 := fun i =>
  (outsAt1 V c (i 0).val (lt_of_lt_of_eq (i 0).isLt N_1.symm)).1 (ix4 (0 : Fin 1) (i 1) (i 2) (i 3))

theorem flushed1_4 (c : Dev nD) (t : Fin cfg1.N) :
    (dat1 V c).flushed 4 t = ((cfg1.win 4).blk t).view.read (Elt F) (prodArr1 V c) := by
  show (cfg1.win 4).cut (grid1.coords t) ((dat1 V c).after 4 t) = _
  rw [after1_4]
  funext j
  show (outsAt1 V c t.val t.isLt).1 j = prodArr1 V c (((cfg1.win 4).blk t).view.emb j)
  rw [emb1_4 t j]
  exact congrArg _ (blk_ix4 j)

theorem final1_4 (c : Dev nD) (n : Fin 32) (h w : Fin 56) (ch : Fin 128) :
    (dat1 V c).arrAt 4 cfg1.N (ix4 n h w ch) = (outsAt1 V c n.val (lt_of_lt_of_eq n.isLt N_1.symm)).1 (ix4 0 h w ch) := by
  have hn : n.val < cfg1.N := lt_of_lt_of_eq n.isLt N_1.symm
  have e : ((cfg1.win 4).blk ⟨n.val, hn⟩).view.emb (ix4 (0 : Fin 1) h w ch) = ix4 n h w ch := emb1_4 ⟨n.val, hn⟩ _
  exact (dat1 V c).arrAt_apply_of_mem 4 (prodArr1 V c) (fun t _ => flushed1_4 V c t) cfg1.N ⟨n.val, hn⟩ (ix4 n h w ch) hn
    (flush1_4 _) (by rw [← e]; exact View.emb_mem_set _ _)

theorem emb1_5 (t : Fin cfg1.N) (j : S1x128.Idx) : ((cfg1.win 5).blk t).view.emb j = j :=
  funext fun a => Fin.ext (win1_5.rect_emb_val_of_index_zero t a (idx1_5 t a) j)

theorem cut1_5 (t : Fin cfg1.N) (X : Vec F S1x128 .f32) :
    (cfg1.win 5).cut (grid1.coords t) X = ((cfg1.win 5).blk t).view.read (Elt F) X :=
  funext fun j => congrArg X (emb1_5 t j).symm

theorem flushed1_5 (c : Dev nD) (t : Fin cfg1.N) (hf : (cfg1.win 5).flush t = true) :
    (dat1 V c).flushed 5 t = ((cfg1.win 5).blk t).view.read (Elt F) (outsAt1 V c 31 lt31_1).2.1 := by
  have hN : cfg1.N = 32 := N_1
  have h31 : t.val = 31 := by have := (flush1_5 t).mp hf; have := t.isLt; omega
  show (cfg1.win 5).cut _ ((dat1 V c).after 5 t) = _
  rw [after1_5, outsAt1_congr V c h31 _ lt31_1]
  exact cut1_5 t _

theorem final1_5 (c : Dev nD) : (dat1 V c).arrAt 5 cfg1.N = (outsAt1 V c 31 (by rw [show cfg1.N = 32 from N_1]; decide)).2.1 :=
  (dat1 V c).arrAt_eq_of_cover 5 _ (flushed1_5 V c) fun i =>
    ⟨⟨31, lt31_1⟩, (flush1_5 _).mpr rfl, by rw [← emb1_5 ⟨31, lt31_1⟩ i]; exact View.emb_mem_set _ _⟩

theorem emb1_6 (t : Fin cfg1.N) (j : S1x128.Idx) : ((cfg1.win 6).blk t).view.emb j = j :=
  funext fun a => Fin.ext (win1_6.rect_emb_val_of_index_zero t a (idx1_6 t a) j)

theorem cut1_6 (t : Fin cfg1.N) (X : Vec F S1x128 .f32) :
    (cfg1.win 6).cut (grid1.coords t) X = ((cfg1.win 6).blk t).view.read (Elt F) X :=
  funext fun j => congrArg X (emb1_6 t j).symm

theorem flushed1_6 (c : Dev nD) (t : Fin cfg1.N) (hf : (cfg1.win 6).flush t = true) :
    (dat1 V c).flushed 6 t = ((cfg1.win 6).blk t).view.read (Elt F) (outsAt1 V c 31 lt31_1).2.2.1 := by
  have hN : cfg1.N = 32 := N_1
  have h31 : t.val = 31 := by have := (flush1_6 t).mp hf; have := t.isLt; omega
  show (cfg1.win 6).cut _ ((dat1 V c).after 6 t) = _
  rw [after1_6, outsAt1_congr V c h31 _ lt31_1]
  exact cut1_6 t _

theorem final1_6 (c : Dev nD) : (dat1 V c).arrAt 6 cfg1.N = (outsAt1 V c 31 (by rw [show cfg1.N = 32 from N_1]; decide)).2.2.1 :=
  (dat1 V c).arrAt_eq_of_cover 6 _ (flushed1_6 V c) fun i =>
    ⟨⟨31, lt31_1⟩, (flush1_6 _).mpr rfl, by rw [← emb1_6 ⟨31, lt31_1⟩ i]; exact View.emb_mem_set _ _⟩

end Cert.KernelIdeal.Hand

end
-- ==== Proof.RI.R01Arrays.lean ====
import proofs.«162787_g2000605952690631_pallasbulk_304_2_alg».proof.Proof.RI.R0Frame
import proofs.«162787_g2000605952690631_pallasbulk_304_2_alg».proof.Proof.RI.R1Frame
import Idealize.ShloMosaic.Lib.Pipeline.Value
import Idealize.ShloMosaic.Lib.ValueIdx

noncomputable section

namespace Cert.ReferenceIdeal.Hand

open Cert.ReferenceIdeal Cert.ReferenceIdeal.Gen Idealize.ShloMosaic Idealize.ShloMosaic.TcCoe
open Idealize.ShloMosaic.ValueIdx (ix4 eq_ix4)

variable {F : FTy → Type} [FloatOps F]
variable (V : (c : Dev nD) → (b : Ref sig .tc) → Buf (Elt F) ((c : Thread nD τ).loc b))

-- The leading axis has extent one.
theorem blk_ix4 (j : S1x56x56x128.Idx) : j = ix4 (0 : Fin 1) (j 1) (j 2) (j 3) :=
  (eq_ix4 j).trans (by rw [Fin.eq_zero (j 0)]; rfl)

theorem lt31_0 : 31 < cfg0.N := lt_of_lt_of_eq (by decide : (31 : ℕ) < 32) N_0.symm

theorem outsAt0_congr (c : Dev nD) {n n' : ℕ} (h : n = n') (hn : n < cfg0.N) (hn' : n' < cfg0.N) :
    outsAt0 V c n hn = outsAt0 V c n' hn' := by
  subst h; rfl

theorem idx0_4 : ∀ t : Fin cfg0.N, win0_4.index t (0 : Fin 4) = t.val ∧ win0_4.index t (1 : Fin 4) = 0
    ∧ win0_4.index t (2 : Fin 4) = 0 ∧ win0_4.index t (3 : Fin 4) = 0 :=
  (by decide +kernel : ∀ t : Fin grid0.N, _)

theorem idx0_5 : ∀ (t : Fin cfg0.N) (a : Fin 2), win0_5.index t a = 0 :=
  (by decide +kernel : ∀ (t : Fin grid0.N) (a : Fin 2), _)

theorem idx0_6 : ∀ (t : Fin cfg0.N) (a : Fin 2), win0_6.index t a = 0 :=
  (by decide +kernel : ∀ (t : Fin grid0.N) (a : Fin 2), _)

-- Each coordinate is the block index times the block extent plus the offset inside the block.
theorem emb0_4 (t : Fin cfg0.N) (j : S1x56x56x128.Idx) :
    ((cfg0.win 4).blk t).view.emb j = ix4 (⟨t.val, lt_of_lt_of_eq t.isLt N_0⟩ : Fin 32) (j 1) (j 2) (j 3) := by
  obtain ⟨e0, e1, e2, e3⟩ := idx0_4 t
  have : (j 0).val < 1 := (j 0).isLt
  funext a; apply Fin.ext
  match a with
  | ⟨0, _⟩ => show win0_4.index t (0 : Fin 4) * 1 + 1 * (j 0).val = t.val; omega
  | ⟨1, _⟩ => exact win0_4.rect_emb_val_of_index_zero t (1 : Fin 4) e1 j
  | ⟨2, _⟩ => exact win0_4.rect_emb_val_of_index_zero t (2 : Fin 4) e2 j
  | ⟨3, _⟩ => exact win0_4.rect_emb_val_of_index_zero t (3 : Fin 4) e3 j

-- Image n of this function is what point n stored.
def prodArr0 (c : Dev nD) : S32x56x56x128.Idx → Elt F .f32 := fun i =>
  (outsAt0 V c (i 0).val (lt_of_lt_of_eq (i 0).isLt N_0.symm)).1 (ix4 (0 : Fin 1) (i 1) (i 2) (i 3))

theorem flushed0_4 (c : Dev nD) (t : Fin cfg0.N) :
    (dat0 V c).flushed 4 t = ((cfg0.win 4).blk t).view.read (Elt F) (prodArr0 V c) := by
  show (cfg0.win 4).cut (grid0.coords t) ((dat0 V c).after 4 t) = _
  rw [after0_4]
  funext j
  show (outsAt0 V c t.val t.isLt).1 j = prodArr0 V c (((cfg0.win 4).blk t).view.emb j)
  rw [emb0_4 t j]
  exact congrArg _ (blk_ix4 j)

-- Each point writes back its own block of that function; a later point writes elsewhere.
theorem final0_4 (c : Dev nD) (n : Fin 32) (h w : Fin 56) (ch : Fin 128) :
    (dat0 V c).arrAt 4 cfg0.N (ix4 n h w ch) = (outsAt0 V c n.val (lt_of_lt_of_eq n.isLt N_0.symm)).1 (ix4 (0 : Fin 1) h w ch) := by
  have hn : n.val < cfg0.N := lt_of_lt_of_eq n.isLt N_0.symm
  have e : ((cfg0.win 4).blk ⟨n.val, hn⟩).view.emb (ix4 (0 : Fin 1) h w ch) = ix4 n h w ch := emb0_4 ⟨n.val, hn⟩ _
  exact (dat0 V c).arrAt_apply_of_mem 4 (prodArr0 V c) (fun t _ => flushed0_4 V c t) cfg0.N ⟨n.val, hn⟩ (ix4 n h w ch) hn
    (flush0_4 _) (by rw [← e]; exact View.emb_mem_set _ _)

-- With block index zero on every axis an element keeps its coordinates.
theorem emb0_5 (t : Fin cfg0.N) (j : S1x128.Idx) : ((cfg0.win 5).blk t).view.emb j = j :=
  funext fun a => Fin.ext (win0_5.rect_emb_val_of_index_zero t a (idx0_5 t a) j)

theorem cut0_5 (t : Fin cfg0.N) (X : Vec F S1x128 .f32) :
    (cfg0.win 5).cut (grid0.coords t) X = ((cfg0.win 5).blk t).view.read (Elt F) X :=
  funext fun j => congrArg X (emb0_5 t j).symm

-- The last point's block covers the array.
theorem final0_5 (c : Dev nD) : (dat0 V c).arrAt 5 cfg0.N = (outsAt0 V c 31 lt31_0).2.1 :=
  (dat0 V c).arrAt_eq_of_cover 5 _ (fun t hf => by
      have hN : cfg0.N = 32 := N_0
      have h31 : t.val = 31 := by have := (flush0_5 t).mp hf; have := t.isLt; omega
      show (cfg0.win 5).cut _ ((dat0 V c).after 5 t) = _
      rw [after0_5, outsAt0_congr V c h31 _ lt31_0]
      exact cut0_5 t _)
    fun i => ⟨⟨31, lt31_0⟩, (flush0_5 _).mpr rfl, by rw [← emb0_5 ⟨31, lt31_0⟩ i]; exact View.emb_mem_set _ _⟩

theorem emb0_6 (t : Fin cfg0.N) (j : S1x128.Idx) : ((cfg0.win 6).blk t).view.emb j = j :=
  funext fun a => Fin.ext (win0_6.rect_emb_val_of_index_zero t a (idx0_6 t a) j)

theorem cut0_6 (t : Fin cfg0.N) (X : Vec F S1x128 .f32) :
    (cfg0.win 6).cut (grid0.coords t) X = ((cfg0.win 6).blk t).view.read (Elt F) X :=
  funext fun j => congrArg X (emb0_6 t j).symm

theorem final0_6 (c : Dev nD) : (dat0 V c).arrAt 6 cfg0.N = (outsAt0 V c 31 lt31_0).2.2.1 :=
  (dat0 V c).arrAt_eq_of_cover 6 _ (fun t hf => by
      have hN : cfg0.N = 32 := N_0
      have h31 : t.val = 31 := by have := (flush0_6 t).mp hf; have := t.isLt; omega
      show (cfg0.win 6).cut _ ((dat0 V c).after 6 t) = _
      rw [after0_6, outsAt0_congr V c h31 _ lt31_0]
      exact cut0_6 t _)
    fun i => ⟨⟨31, lt31_0⟩, (flush0_6 _).mpr rfl, by rw [← emb0_6 ⟨31, lt31_0⟩ i]; exact View.emb_mem_set _ _⟩

theorem lt31_1 : 31 < cfg1.N := lt_of_lt_of_eq (by decide : (31 : ℕ) < 32) N_1.symm

theorem outsAt1_congr (c : Dev nD) {n n' : ℕ} (h : n = n') (hn : n < cfg1.N) (hn' : n' < cfg1.N) :
    outsAt1 V c n hn = outsAt1 V c n' hn' := by
  subst h; rfl

theorem idx1_4 : ∀ t : Fin cfg1.N, win1_4.index t (0 : Fin 4) = t.val ∧ win1_4.index t (1 : Fin 4) = 0
    ∧ win1_4.index t (2 : Fin 4) = 0 ∧ win1_4.index t (3 : Fin 4) = 0 :=
  (by decide +kernel : ∀ t : Fin grid1.N, _)

theorem idx1_5 : ∀ (t : Fin cfg1.N) (a : Fin 2), win1_5.index t a = 0 :=
  (by decide +kernel : ∀ (t : Fin grid1.N) (a : Fin 2), _)

theorem idx1_6 : ∀ (t : Fin cfg1.N) (a : Fin 2), win1_6.index t a = 0 :=
  (by decide +kernel : ∀ (t : Fin grid1.N) (a : Fin 2), _)

theorem emb1_4 (t : Fin cfg1.N) (j : S1x56x56x128.Idx) :
    ((cfg1.win 4).blk t).view.emb j = ix4 (⟨t.val, lt_of_lt_of_eq t.isLt N_1⟩ : Fin 32) (j 1) (j 2) (j 3) := by
  obtain ⟨e0, e1, e2, e3⟩ := idx1_4 t
  have : (j 0).val < 1 := (j 0).isLt
  funext a; apply Fin.ext
  match a with
  | ⟨0, _⟩ => show win1_4.index t (0 : Fin 4) * 1 + 1 * (j 0).val = t.val; omega
  | ⟨1, _⟩ => exact win1_4.rect_emb_val_of_index_zero t (1 : Fin 4) e1 j
  | ⟨2, _⟩ => exact win1_4.rect_emb_val_of_index_zero t (2 : Fin 4) e2 j
  | ⟨3, _⟩ => exact win1_4.rect_emb_val_of_index_zero t (3 : Fin 4) e3 j

def prodArr1 (c : Dev nD) : S32x56x56x128.Idx → Elt F .f32 := fun i =>
  (outsAt1 V c (i 0).val (lt_of_lt_of_eq (i 0).isLt N_1.symm)).1 (ix4 (0 : Fin 1) (i 1) (i 2) (i 3))

theorem flushed1_4 (c : Dev nD) (t : Fin cfg1.N) :
    (dat1 V c).flushed 4 t = ((cfg1.win 4).blk t).view.read (Elt F) (prodArr1 V c) := by
  show (cfg1.win 4).cut (grid1.coords t) ((dat1 V c).after 4 t) = _
  rw [after1_4]
  funext j
  show (outsAt1 V c t.val t.isLt).1 j = prodArr1 V c (((cfg1.win 4).blk t).view.emb j)
  rw [emb1_4 t j]
  exact congrArg _ (blk_ix4 j)

theorem final1_4 (c : Dev nD) (n : Fin 32) (h w : Fin 56) (ch : Fin 128) :
    (dat1 V c).arrAt 4 cfg1.N (ix4 n h w ch) = (outsAt1 V c n.val (lt_of_lt_of_eq n.isLt N_1.symm)).1 (ix4 (0 : Fin 1) h w ch) := by
  have hn : n.val < cfg1.N := lt_of_lt_of_eq n.isLt N_1.symm
  have e : ((cfg1.win 4).blk ⟨n.val, hn⟩).view.emb (ix4 (0 : Fin 1) h w ch) = ix4 n h w ch := emb1_4 ⟨n.val, hn⟩ _
  exact (dat1 V c).arrAt_apply_of_mem 4 (prodArr1 V c) (fun t _ => flushed1_4 V c t) cfg1.N ⟨n.val, hn⟩ (ix4 n h w ch) hn
    (flush1_4 _) (by rw [← e]; exact View.emb_mem_set _ _)

theorem emb1_5 (t : Fin cfg1.N) (j : S1x128.Idx) : ((cfg1.win 5).blk t).view.emb j = j :=
  funext fun a => Fin.ext (win1_5.rect_emb_val_of_index_zero t a (idx1_5 t a) j)

theorem cut1_5 (t : Fin cfg1.N) (X : Vec F S1x128 .f32) :
    (cfg1.win 5).cut (grid1.coords t) X = ((cfg1.win 5).blk t).view.read (Elt F) X :=
  funext fun j => congrArg X (emb1_5 t j).symm

theorem final1_5 (c : Dev nD) : (dat1 V c).arrAt 5 cfg1.N = (outsAt1 V c 31 lt31_1).2.1 :=
  (dat1 V c).arrAt_eq_of_cover 5 _ (fun t hf => by
      have hN : cfg1.N = 32 := N_1
      have h31 : t.val = 31 := by have := (flush1_5 t).mp hf; have := t.isLt; omega
      show (cfg1.win 5).cut _ ((dat1 V c).after 5 t) = _
      rw [after1_5, outsAt1_congr V c h31 _ lt31_1]
      exact cut1_5 t _)
    fun i => ⟨⟨31, lt31_1⟩, (flush1_5 _).mpr rfl, by rw [← emb1_5 ⟨31, lt31_1⟩ i]; exact View.emb_mem_set _ _⟩

theorem emb1_6 (t : Fin cfg1.N) (j : S1x128.Idx) : ((cfg1.win 6).blk t).view.emb j = j :=
  funext fun a => Fin.ext (win1_6.rect_emb_val_of_index_zero t a (idx1_6 t a) j)

theorem cut1_6 (t : Fin cfg1.N) (X : Vec F S1x128 .f32) :
    (cfg1.win 6).cut (grid1.coords t) X = ((cfg1.win 6).blk t).view.read (Elt F) X :=
  funext fun j => congrArg X (emb1_6 t j).symm

theorem final1_6 (c : Dev nD) : (dat1 V c).arrAt 6 cfg1.N = (outsAt1 V c 31 lt31_1).2.2.1 :=
  (dat1 V c).arrAt_eq_of_cover 6 _ (fun t hf => by
      have hN : cfg1.N = 32 := N_1
      have h31 : t.val = 31 := by have := (flush1_6 t).mp hf; have := t.isLt; omega
      show (cfg1.win 6).cut _ ((dat1 V c).after 6 t) = _
      rw [after1_6, outsAt1_congr V c h31 _ lt31_1]
      exact cut1_6 t _)
    fun i => ⟨⟨31, lt31_1⟩, (flush1_6 _).mpr rfl, by rw [← emb1_6 ⟨31, lt31_1⟩ i]; exact View.emb_mem_set _ _⟩

end Cert.ReferenceIdeal.Hand

end
-- ==== Proof.BridgeR0Ind.lean ====
import proofs.«162787_g2000605952690631_pallasbulk_304_2_alg».proof.Proof.BridgeR0
import proofs.«162787_g2000605952690631_pallasbulk_304_2_alg».proof.Proof.KI.R01Blocks
import proofs.«162787_g2000605952690631_pallasbulk_304_2_alg».proof.Proof.RI.R01Blocks
import proofs.«162787_g2000605952690631_pallasbulk_304_2_alg».proof.Proof.KI.R01Arrays
import proofs.«162787_g2000605952690631_pallasbulk_304_2_alg».proof.Proof.RI.R01Arrays

set_option maxRecDepth 16384

noncomputable section

namespace Cert.Bridge

open Idealize.ShloMosaic Idealize.ShloMosaic.TcCoe Idealize.ShloMosaic.ValueIdx
open Idealize.SL Idealize.SL.Sem

abbrev KV := (c : Dev Cert.KernelIdeal.nD) → (b : Ref Cert.KernelIdeal.sig .tc) → Buf (Elt Ideal) ((c : Thread Cert.KernelIdeal.nD Cert.KernelIdeal.τ).loc b)
abbrev RV := (c : Dev Cert.ReferenceIdeal.nD) → (b : Ref Cert.ReferenceIdeal.sig .tc) → Buf (Elt Ideal) ((c : Thread Cert.ReferenceIdeal.nD Cert.ReferenceIdeal.τ).loc b)

section Region0

variable (VK : KV) (VR : RV) (c : Dev Cert.KernelIdeal.nD)
  (hx : VK c Cert.KernelIdeal.main_arg0 = VR c Cert.ReferenceIdeal.main_arg0)
  (hw : VK c Cert.KernelIdeal.main_v1 = VR c Cert.ReferenceIdeal.main_v0)

include hx in
theorem iblk0_2_eq (n : ℕ) (hK : n < Cert.KernelIdeal.cfg0.N) (hR : n < Cert.ReferenceIdeal.cfg0.N) :
    (Cert.KernelIdeal.Hand.iblk0 VK c 2 ⟨n, hK⟩ : Cert.ReferenceIdeal.S1x56x56x64.Idx → EReal) = Cert.ReferenceIdeal.Hand.iblk0 VR c 2 ⟨n, hR⟩ := by
  funext y
  obtain ⟨a, h, w, ch, rfl⟩ : ∃ (a : Fin 1) (h w : Fin 56) (ch : Fin 64), y = ix4 a h w ch := ⟨y 0, y 1, y 2, y 3, eq_ix4 y⟩
  obtain rfl : a = 0 := Subsingleton.elim _ _
  exact (Cert.KernelIdeal.Hand.iblk0_2_at VK c _ h w ch).trans ((congrFun hx _).trans (Cert.ReferenceIdeal.Hand.iblk0_2_at VR c _ h w ch).symm)

include hw in
theorem iblk0_3_eq (tK : Fin Cert.KernelIdeal.cfg0.N) (tR : Fin Cert.ReferenceIdeal.cfg0.N) :
    (Cert.KernelIdeal.Hand.iblk0 VK c 3 tK : Cert.ReferenceIdeal.S576x128.Idx → EReal) = Cert.ReferenceIdeal.Hand.iblk0 VR c 3 tR :=
  (Cert.KernelIdeal.Hand.iblk0_3_eq VK c tK).trans (hw.trans (Cert.ReferenceIdeal.Hand.iblk0_3_eq VR c tR).symm)

include hx hw in
/-- Equal blocks go in at every image and the steps are one function, so the running state agrees after every image. -/
theorem outsAt0_eq : ∀ (n : ℕ) (hK : n < Cert.KernelIdeal.cfg0.N) (hR : n < Cert.ReferenceIdeal.cfg0.N),
    Cert.KernelIdeal.Hand.outsAt0 VK c n hK = Cert.ReferenceIdeal.Hand.outsAt0 VR c n hR
  | 0, hK, hR => by
    show Cert.KernelIdeal.Hand.outA0 VK c ⟨0, hK⟩ _ = Cert.ReferenceIdeal.Hand.outA0 VR c ⟨0, hR⟩ _
    rw [Cert.KernelIdeal.Hand.outA0_eq, Cert.ReferenceIdeal.Hand.outA0_eq, iblk0_2_eq VK VR c hx (0) hK hR, iblk0_3_eq VK VR c hw ⟨0, hK⟩ ⟨0, hR⟩]
    exact stepA0_eq _ _
  | n + 1, hK, hR => by
    show Cert.KernelIdeal.Hand.outB0 VK c ⟨n + 1, hK⟩ _ _ _ _ = Cert.ReferenceIdeal.Hand.outB0 VR c ⟨n + 1, hR⟩ _ _ _ _
    rw [Cert.KernelIdeal.Hand.outB0_eq, Cert.ReferenceIdeal.Hand.outB0_eq, outsAt0_eq n (Nat.lt_of_succ_lt hK) (Nat.lt_of_succ_lt hR), iblk0_2_eq VK VR c hx (n + 1) hK hR, iblk0_3_eq VK VR c hw ⟨n + 1, hK⟩ ⟨n + 1, hR⟩]
    exact stepB0_eq _ _ _ _ _

include hx hw in
theorem prod0_eq :
    ((Cert.KernelIdeal.Hand.dat0 VK c).arrAt 4 Cert.KernelIdeal.cfg0.N : Cert.ReferenceIdeal.S32x56x56x128.Idx → EReal) = (Cert.ReferenceIdeal.Hand.dat0 VR c).arrAt 4 Cert.ReferenceIdeal.cfg0.N := by
  funext i
  obtain ⟨n, h, w, ch, rfl⟩ : ∃ (n : Fin 32) (h w : Fin 56) (ch : Fin 128), i = ix4 n h w ch := ⟨i 0, i 1, i 2, i 3, eq_ix4 i⟩
  exact (Cert.KernelIdeal.Hand.final0_4 VK c n h w ch).trans
    ((congrArg (fun p => (p.1 : Cert.ReferenceIdeal.S1x56x56x128.Idx → EReal) (ix4 0 h w ch)) (outsAt0_eq VK VR c hx hw n.val _ _)).trans
      (Cert.ReferenceIdeal.Hand.final0_4 VR c n h w ch).symm)

include hx hw in
theorem sum0_eq :
    ((Cert.KernelIdeal.Hand.dat0 VK c).arrAt 5 Cert.KernelIdeal.cfg0.N : Cert.ReferenceIdeal.S1x128.Idx → EReal) = (Cert.ReferenceIdeal.Hand.dat0 VR c).arrAt 5 Cert.ReferenceIdeal.cfg0.N :=
  (Cert.KernelIdeal.Hand.final0_5 VK c).trans ((congrArg (fun p => p.2.1) (outsAt0_eq VK VR c hx hw 31 _ _)).trans (Cert.ReferenceIdeal.Hand.final0_5 VR c).symm)

include hx hw in
theorem sumsq0_eq :
    ((Cert.KernelIdeal.Hand.dat0 VK c).arrAt 6 Cert.KernelIdeal.cfg0.N : Cert.ReferenceIdeal.S1x128.Idx → EReal) = (Cert.ReferenceIdeal.Hand.dat0 VR c).arrAt 6 Cert.ReferenceIdeal.cfg0.N :=
  (Cert.KernelIdeal.Hand.final0_6 VK c).trans ((congrArg (fun p => p.2.2.1) (outsAt0_eq VK VR c hx hw 31 _ _)).trans (Cert.ReferenceIdeal.Hand.final0_6 VR c).symm)

end Region0

end Cert.Bridge

end
-- ==== Proof.KI.R1Step.lean ====
import proofs.«162787_g2000605952690631_pallasbulk_304_2_alg».proof.Proof.KI.R1Frame
import proofs.«162787_g2000605952690631_pallasbulk_304_2_alg».proof.Proof.LibOverlay

noncomputable section

namespace Cert.KernelIdeal.Hand

open Cert.KernelIdeal Cert.KernelIdeal.Gen Idealize.ShloMosaic Idealize.ShloMosaic.TcCoe Idealize.ShloMosaic.Tactic

variable {F : FTy → Type} [FloatOps F]

abbrev rInt1 : Rect S58x58x128 := Rect.unit (s := S58x58x128) ![1, 0, 0] S56x58x128.size inb_S58x58x128_S56x58x128_1_0_0
abbrev rAll1 : Rect S58x58x128 := Rect.unit (s := S58x58x128) ![0, 0, 0] S58x58x128.size inb_S58x58x128_S58x58x128_0_0_0
abbrev rX1 : Rect S1x56x56x128 := Rect.unit (s := S1x56x56x128) ![0, 0, 0, 0] S1x56x56x128.size inb_S1x56x56x128_S1x56x56x128_0_0_0_0
abbrev rW1 : Rect S1152x128 := Rect.unit (s := S1152x128) ![0, 0] S1152x128.size inb_S1152x128_S1152x128_0_0
abbrev rO1 : Rect S1x56x56x128 := Rect.unit (s := S1x56x56x128) ![0, 0, 0, 0] S1x56x56x128.size inb_S1x56x56x128_S1x56x56x128_0_0_0_0
abbrev rS1 : Rect S1x128 := Rect.unit (s := S1x128) ![0, 0] S1x128.size inb_S1x128_S1x128_0_0
abbrev rT1_00 : Rect S58x58x128 := Rect.unit (s := S58x58x128) ![0, 0, 0] S56x56x128.size inb_S58x58x128_S56x56x128_0_0_0
abbrev rT1_01 : Rect S58x58x128 := Rect.unit (s := S58x58x128) ![0, 1, 0] S56x56x128.size inb_S58x58x128_S56x56x128_0_1_0
abbrev rT1_02 : Rect S58x58x128 := Rect.unit (s := S58x58x128) ![0, 2, 0] S56x56x128.size inb_S58x58x128_S56x56x128_0_2_0
abbrev rT1_10 : Rect S58x58x128 := Rect.unit (s := S58x58x128) ![1, 0, 0] S56x56x128.size inb_S58x58x128_S56x56x128_1_0_0
abbrev rT1_11 : Rect S58x58x128 := Rect.unit (s := S58x58x128) ![1, 1, 0] S56x56x128.size inb_S58x58x128_S56x56x128_1_1_0
abbrev rT1_12 : Rect S58x58x128 := Rect.unit (s := S58x58x128) ![1, 2, 0] S56x56x128.size inb_S58x58x128_S56x56x128_1_2_0
abbrev rT1_20 : Rect S58x58x128 := Rect.unit (s := S58x58x128) ![2, 0, 0] S56x56x128.size inb_S58x58x128_S56x56x128_2_0_0
abbrev rT1_21 : Rect S58x58x128 := Rect.unit (s := S58x58x128) ![2, 1, 0] S56x56x128.size inb_S58x58x128_S56x56x128_2_1_0
abbrev rT1_22 : Rect S58x58x128 := Rect.unit (s := S58x58x128) ![2, 2, 0] S56x56x128.size inb_S58x58x128_S56x56x128_2_2_0

-- The stored interior as one piece over the padded image.
def piece1 (old : Vec F S56x58x128 .bf16) (x0 x1 : Vec F S1x128 .f32) (x2 : Vec F S1x56x56x128 .bf16) : View.Piece (Elt F) S58x58x128 .bf16 :=
  ⟨rInt1, updateSlice old (k1_pay8 (View.ld x2 rX1) (View.ld x0 rS1) (View.ld x1 rS1)) ![0, 1, 0] slices_S56x58x128_S56x56x128_0_1_0⟩

-- The nine shifted loads of the padded image, side by side.
def taps1 {α : Type} (k : Vec F S56x56x128 .bf16 → Vec F S56x56x128 .bf16 → Vec F S56x56x128 .bf16 → Vec F S56x56x128 .bf16 → Vec F S56x56x128 .bf16 → Vec F S56x56x128 .bf16 → Vec F S56x56x128 .bf16 → Vec F S56x56x128 .bf16 → Vec F S56x56x128 .bf16 → α) (Gb Gi : Vec F S58x58x128 .bf16) : α :=
  k (View.ld Gb rT1_00) (View.ld Gb rT1_01) (View.ld Gb rT1_02) (View.ld Gi rT1_10) (View.ld Gi rT1_11) (View.ld Gi rT1_12) (View.ld Gb rT1_20) (View.ld Gb rT1_21) (View.ld Gb rT1_22)

-- What the first image leaves: the padded image and the sums start from their cleared values.
def stepA1 (x0 x1 : Vec F S1x128 .f32) (x2 : Vec F S1x56x56x128 .bf16) (x3 : Vec F S1152x128 .bf16) :
    Vec F S1x56x56x128 .bf16 × Vec F S1x128 .f32 × Vec F S1x128 .f32 × Vec F S58x58x128 .bf16 :=
  let LS : List (View.Piece (Elt F) S58x58x128 .bf16) :=
    [piece1 (View.ld (View.canon [(⟨rAll1, k1_pay5⟩ : View.Piece (Elt F) S58x58x128 .bf16)]) rInt1) x0 x1 x2, ⟨rAll1, k1_pay5⟩]
  let G := View.canon LS
  let W := View.ld x3 rW1
  (View.canon [⟨rO1, taps1 k1_pay2 G G W⟩],
   View.canon [⟨rS1, taps1 k1_pay3 G G W (View.ld (View.canon [(⟨rS1, k1_pay6⟩ : View.Piece (Elt F) S1x128 .f32)]) rS1)⟩, ⟨rS1, k1_pay6⟩],
   View.canon [⟨rS1, taps1 k1_pay4 G G W (View.ld (View.canon [(⟨rS1, k1_pay7⟩ : View.Piece (Elt F) S1x128 .f32)]) rS1)⟩, ⟨rS1, k1_pay7⟩],
   View.canon LS)

-- What a later image leaves, from the running sums and the old padded image.
def stepB1 (x0 x1 : Vec F S1x128 .f32) (x2 : Vec F S1x56x56x128 .bf16) (x3 : Vec F S1152x128 .bf16) (xo5 xo6 : Vec F S1x128 .f32) (xs : Vec F S58x58x128 .bf16) :
    Vec F S1x56x56x128 .bf16 × Vec F S1x128 .f32 × Vec F S1x128 .f32 × Vec F S58x58x128 .bf16 :=
  let LS : List (View.Piece (Elt F) S58x58x128 .bf16) := [piece1 (View.ld xs rInt1) x0 x1 x2]
  let Gb := View.over xs LS
  let Gi := View.canon LS
  let W := View.ld x3 rW1
  (View.canon [⟨rO1, taps1 k1_pay2 Gb Gi W⟩],
   View.canon [⟨rS1, taps1 k1_pay3 Gb Gi W (View.ld xo5 rS1)⟩],
   View.canon [⟨rS1, taps1 k1_pay4 Gb Gi W (View.ld xo6 rS1)⟩],
   View.over xs LS)

section Forms

variable (V : (c : Dev nD) → (b : Ref sig .tc) → Buf (Elt F) ((c : Thread nD τ).loc b))

theorem outA1_eq (c : Dev nD) (t : Fin cfg1.N) (hc : cond1 (grid1.coords t)) :
    outA1 V c t hc = stepA1 (iblk1 V c 0 t) (iblk1 V c 1 t) (iblk1 V c 2 t) (iblk1 V c 3 t) := by
  unfold outA1 runA1 kernelRun1_A
  dsimp only
  sl_unfold_run_names
  simp only [View.read_writes_junk_eq_canon]
  simp only [View.readAt_eq_ld, Memref.IsWhole.read_unread, View.readCov_eq_canon']
  rfl

theorem outB1_eq (c : Dev nD) (t : Fin cfg1.N) (hc : ¬cond1 (grid1.coords t)) (xo5 xo6 : Vec F S1x128 .f32) (xs : Vec F S58x58x128 .bf16) :
    outB1 V c t hc xo5 xo6 xs = stepB1 (iblk1 V c 0 t) (iblk1 V c 1 t) (iblk1 V c 2 t) (iblk1 V c 3 t) xo5 xo6 xs := by
  have hxs := (Memref.isWhole_whole cc1_scratch0 : scM1.IsWhole).read_unread (Val := Elt F) xs
  dsimp only at hxs
  unfold outB1 runB1 kernelRun1_B
  dsimp only
  sl_unfold_run_names
  simp only [View.read_writes_junk_eq_canon]
  simp only [View.read_writes_eq_over, View.readAt_eq_ld, Memref.IsWhole.read_unread, View.readCov_eq_canon', hxs]
  rfl

end Forms

end Cert.KernelIdeal.Hand

end
-- ==== Proof.RI.R1Step.lean ====
import proofs.«162787_g2000605952690631_pallasbulk_304_2_alg».proof.Proof.RI.R1Frame
import proofs.«162787_g2000605952690631_pallasbulk_304_2_alg».proof.Proof.LibOverlay

noncomputable section

namespace Cert.ReferenceIdeal.Hand

open Cert.ReferenceIdeal Cert.ReferenceIdeal.Gen Idealize.ShloMosaic Idealize.ShloMosaic.TcCoe Idealize.ShloMosaic.Tactic

variable {F : FTy → Type} [FloatOps F]

abbrev rAll1 : Rect S58x58x128 := Rect.unit (s := S58x58x128) ![0, 0, 0] S58x58x128.size inb_S58x58x128_S58x58x128_0_0_0
abbrev rX1 : Rect S1x56x56x128 := Rect.unit (s := S1x56x56x128) ![0, 0, 0, 0] S1x56x56x128.size inb_S1x56x56x128_S1x56x56x128_0_0_0_0
abbrev rW1 : Rect S1152x128 := Rect.unit (s := S1152x128) ![0, 0] S1152x128.size inb_S1152x128_S1152x128_0_0
abbrev rO1 : Rect S1x56x56x128 := Rect.unit (s := S1x56x56x128) ![0, 0, 0, 0] S1x56x56x128.size inb_S1x56x56x128_S1x56x56x128_0_0_0_0
abbrev rS1 : Rect S1x128 := Rect.unit (s := S1x128) ![0, 0] S1x128.size inb_S1x128_S1x128_0_0
abbrev rT1_00 : Rect S58x58x128 := Rect.unit (s := S58x58x128) ![0, 0, 0] S56x56x128.size inb_S58x58x128_S56x56x128_0_0_0
abbrev rT1_01 : Rect S58x58x128 := Rect.unit (s := S58x58x128) ![0, 1, 0] S56x56x128.size inb_S58x58x128_S56x56x128_0_1_0
abbrev rT1_02 : Rect S58x58x128 := Rect.unit (s := S58x58x128) ![0, 2, 0] S56x56x128.size inb_S58x58x128_S56x56x128_0_2_0
abbrev rT1_10 : Rect S58x58x128 := Rect.unit (s := S58x58x128) ![1, 0, 0] S56x56x128.size inb_S58x58x128_S56x56x128_1_0_0
abbrev rT1_11 : Rect S58x58x128 := Rect.unit (s := S58x58x128) ![1, 1, 0] S56x56x128.size inb_S58x58x128_S56x56x128_1_1_0
abbrev rT1_12 : Rect S58x58x128 := Rect.unit (s := S58x58x128) ![1, 2, 0] S56x56x128.size inb_S58x58x128_S56x56x128_1_2_0
abbrev rT1_20 : Rect S58x58x128 := Rect.unit (s := S58x58x128) ![2, 0, 0] S56x56x128.size inb_S58x58x128_S56x56x128_2_0_0
abbrev rT1_21 : Rect S58x58x128 := Rect.unit (s := S58x58x128) ![2, 1, 0] S56x56x128.size inb_S58x58x128_S56x56x128_2_1_0
abbrev rT1_22 : Rect S58x58x128 := Rect.unit (s := S58x58x128) ![2, 2, 0] S56x56x128.size inb_S58x58x128_S56x56x128_2_2_0

-- The stored interior as one piece over the padded image.
def piece1 (x0 x1 : Vec F S1x128 .f32) (x2 : Vec F S1x56x56x128 .f32) : View.Piece (Elt F) S58x58x128 .f32 :=
  ⟨rT1_11, k1_pay8 (View.ld x2 rX1) (View.ld x0 rS1) (View.ld x1 rS1)⟩

-- The nine shifted loads of the padded image, side by side.
def taps1 {α : Type} (k : Vec F S56x56x128 .f32 → Vec F S56x56x128 .f32 → Vec F S56x56x128 .f32 → Vec F S56x56x128 .f32 → Vec F S56x56x128 .f32 → Vec F S56x56x128 .f32 → Vec F S56x56x128 .f32 → Vec F S56x56x128 .f32 → Vec F S56x56x128 .f32 → α) (Gb Gi : Vec F S58x58x128 .f32) : α :=
  k (View.ld Gb rT1_00) (View.ld Gb rT1_01) (View.ld Gb rT1_02) (View.ld Gb rT1_10) (View.ld Gi rT1_11) (View.ld Gb rT1_12) (View.ld Gb rT1_20) (View.ld Gb rT1_21) (View.ld Gb rT1_22)

-- What the first image leaves: the padded image and the sums start from their cleared values.
def stepA1 (x0 x1 : Vec F S1x128 .f32) (x2 : Vec F S1x56x56x128 .f32) (x3 : Vec F S1152x128 .f32) :
    Vec F S1x56x56x128 .f32 × Vec F S1x128 .f32 × Vec F S1x128 .f32 × Vec F S58x58x128 .f32 :=
  let LS : List (View.Piece (Elt F) S58x58x128 .f32) := [piece1 x0 x1 x2, ⟨rAll1, k1_pay5⟩]
  let G := View.canon LS
  let W := View.ld x3 rW1
  (View.canon [⟨rO1, taps1 k1_pay2 G G W⟩],
   View.canon [⟨rS1, taps1 k1_pay3 G G W (View.ld (View.canon [(⟨rS1, k1_pay6⟩ : View.Piece (Elt F) S1x128 .f32)]) rS1)⟩, ⟨rS1, k1_pay6⟩],
   View.canon [⟨rS1, taps1 k1_pay4 G G W (View.ld (View.canon [(⟨rS1, k1_pay7⟩ : View.Piece (Elt F) S1x128 .f32)]) rS1)⟩, ⟨rS1, k1_pay7⟩],
   View.canon LS)

-- What a later image leaves, from the running sums and the old padded image.
def stepB1 (x0 x1 : Vec F S1x128 .f32) (x2 : Vec F S1x56x56x128 .f32) (x3 : Vec F S1152x128 .f32) (xo5 xo6 : Vec F S1x128 .f32) (xs : Vec F S58x58x128 .f32) :
    Vec F S1x56x56x128 .f32 × Vec F S1x128 .f32 × Vec F S1x128 .f32 × Vec F S58x58x128 .f32 :=
  let LS : List (View.Piece (Elt F) S58x58x128 .f32) := [piece1 x0 x1 x2]
  let Gb := View.over xs LS
  let Gi := View.canon LS
  let W := View.ld x3 rW1
  (View.canon [⟨rO1, taps1 k1_pay2 Gb Gi W⟩],
   View.canon [⟨rS1, taps1 k1_pay3 Gb Gi W (View.ld xo5 rS1)⟩],
   View.canon [⟨rS1, taps1 k1_pay4 Gb Gi W (View.ld xo6 rS1)⟩],
   View.over xs LS)

section Forms

variable (V : (c : Dev nD) → (b : Ref sig .tc) → Buf (Elt F) ((c : Thread nD τ).loc b))

theorem outA1_eq (c : Dev nD) (t : Fin cfg1.N) (hc : cond1 (grid1.coords t)) :
    outA1 V c t hc = stepA1 (iblk1 V c 0 t) (iblk1 V c 1 t) (iblk1 V c 2 t) (iblk1 V c 3 t) := by
  unfold outA1 runA1 kernelRun1_A
  dsimp only
  sl_unfold_run_names
  simp only [View.read_writes_junk_eq_canon]
  simp only [View.readAt_eq_ld, Memref.IsWhole.read_unread, View.readCov_eq_canon']
  rfl

theorem outB1_eq (c : Dev nD) (t : Fin cfg1.N) (hc : ¬cond1 (grid1.coords t)) (xo5 xo6 : Vec F S1x128 .f32) (xs : Vec F S58x58x128 .f32) :
    outB1 V c t hc xo5 xo6 xs = stepB1 (iblk1 V c 0 t) (iblk1 V c 1 t) (iblk1 V c 2 t) (iblk1 V c 3 t) xo5 xo6 xs := by
  have hxs := (Memref.isWhole_whole cc1_scratch0 : scM1.IsWhole).read_unread (Val := Elt F) xs
  dsimp only at hxs
  unfold outB1 runB1 kernelRun1_B
  dsimp only
  sl_unfold_run_names
  simp only [View.read_writes_junk_eq_canon]
  simp only [View.read_writes_eq_over, View.readAt_eq_ld, Memref.IsWhole.read_unread, View.readCov_eq_canon', hxs]
  rfl

end Forms

end Cert.ReferenceIdeal.Hand

end
-- ==== Proof.BridgeR1.lean ====
import proofs.«162787_g2000605952690631_pallasbulk_304_2_alg».proof.Proof.KI.R1Step
import proofs.«162787_g2000605952690631_pallasbulk_304_2_alg».proof.Proof.RI.R1Step
import proofs.«162787_g2000605952690631_pallasbulk_304_2_alg».proof.Proof.LibPad
import Idealize.ShloMosaic.Lib.IdealHost

noncomputable section

namespace Cert.Bridge

open Idealize.ShloMosaic

/-- Both zero words are the extended real 0. -/
theorem k1_pay5_eq : Cert.KernelIdeal.Gen.k1_pay5 (F := Ideal) = Cert.ReferenceIdeal.Gen.k1_pay5 (F := Ideal) :=
  funext fun _ => Ideal.ofBits_zero_bf16.trans Ideal.ofBits_zero_f32.symm

/-- Rows 1..56 stored back with columns 1..56 replaced leave the image with the block stored at (1, 1). -/
theorem padK1_eq (xs : Cert.ReferenceIdeal.S58x58x128.Idx → EReal) (x0 x1 : Cert.ReferenceIdeal.S1x128.Idx → EReal) (x2 : Cert.ReferenceIdeal.S1x56x56x128.Idx → EReal) :
    View.over (Val := Elt Ideal) (e := .bf16) xs [Cert.KernelIdeal.Hand.piece1 (F := Ideal) (View.ld (Val := Elt Ideal) (e' := .bf16) xs Cert.KernelIdeal.Hand.rInt1) x0 x1 x2]
      = View.over (Val := Elt Ideal) (e := .f32) xs [Cert.ReferenceIdeal.Hand.piece1 (F := Ideal) x0 x1 x2] := by
  unfold Cert.KernelIdeal.Hand.piece1 Cert.ReferenceIdeal.Hand.piece1
  exact View.over_updateSlice (Val := Elt Ideal) (e := .bf16) xs _ Cert.KernelIdeal.Gen.slices_S56x58x128_S56x56x128_0_1_0 (by decide)

/-- The same over the cleared image. -/
theorem canonK1_eq (x0 x1 : Cert.ReferenceIdeal.S1x128.Idx → EReal) (x2 : Cert.ReferenceIdeal.S1x56x56x128.Idx → EReal) :
    View.canon (Val := Elt Ideal) (e := .bf16) [Cert.KernelIdeal.Hand.piece1 (F := Ideal) (View.ld (Val := Elt Ideal) (e' := .bf16) (View.canon (Val := Elt Ideal) [(⟨Cert.KernelIdeal.Hand.rAll1, Cert.KernelIdeal.Gen.k1_pay5 (F := Ideal)⟩ : View.Piece (Elt Ideal) Cert.KernelIdeal.S58x58x128 .bf16)]) Cert.KernelIdeal.Hand.rInt1) x0 x1 x2, ⟨Cert.KernelIdeal.Hand.rAll1, Cert.KernelIdeal.Gen.k1_pay5 (F := Ideal)⟩]
      = View.canon (Val := Elt Ideal) (e := .f32) [Cert.ReferenceIdeal.Hand.piece1 (F := Ideal) x0 x1 x2, ⟨Cert.ReferenceIdeal.Hand.rAll1, Cert.ReferenceIdeal.Gen.k1_pay5 (F := Ideal)⟩] := by
  rw [View.canon_cons_eq_over, padK1_eq, View.canon_unit_zero View.zero3, k1_pay5_eq, View.canon_cons_eq_over, View.canon_unit_zero View.zero3]

/-- The taps read off the stored piece alone lie inside it, so all nine are windows of the one padded image. -/
theorem taps1_eq {α : Type} (k) (xs : Cert.ReferenceIdeal.S58x58x128.Idx → EReal) (x0 x1 : Cert.ReferenceIdeal.S1x128.Idx → EReal) (x2 : Cert.ReferenceIdeal.S1x56x56x128.Idx → EReal) :
    Cert.KernelIdeal.Hand.taps1 (F := Ideal) (α := α) k
        (View.over (Val := Elt Ideal) (e := .bf16) xs [Cert.KernelIdeal.Hand.piece1 (F := Ideal) (View.ld (Val := Elt Ideal) (e' := .bf16) xs Cert.KernelIdeal.Hand.rInt1) x0 x1 x2])
        (View.canon (Val := Elt Ideal) (e := .bf16) [Cert.KernelIdeal.Hand.piece1 (F := Ideal) (View.ld (Val := Elt Ideal) (e' := .bf16) xs Cert.KernelIdeal.Hand.rInt1) x0 x1 x2])
      = Cert.ReferenceIdeal.Hand.taps1 (F := Ideal) k
        (View.over (Val := Elt Ideal) (e := .f32) xs [Cert.ReferenceIdeal.Hand.piece1 (F := Ideal) x0 x1 x2])
        (View.canon (Val := Elt Ideal) (e := .f32) [Cert.ReferenceIdeal.Hand.piece1 (F := Ideal) x0 x1 x2]) := by
  have hP := padK1_eq xs x0 x1 x2
  unfold Cert.KernelIdeal.Hand.piece1 Cert.ReferenceIdeal.Hand.piece1 at hP
  unfold Cert.KernelIdeal.Hand.taps1 Cert.ReferenceIdeal.Hand.taps1 Cert.KernelIdeal.Hand.piece1 Cert.ReferenceIdeal.Hand.piece1
  rw [View.ld_canon_single_eq_ld_over (Val := Elt Ideal) (e := .bf16) xs Cert.KernelIdeal.Hand.rInt1 _ Cert.KernelIdeal.Hand.rT1_10 (View.unit_emb_mem_unit (by decide)),
    View.ld_canon_single_eq_ld_over (Val := Elt Ideal) (e := .bf16) xs Cert.KernelIdeal.Hand.rInt1 _ Cert.KernelIdeal.Hand.rT1_11 (View.unit_emb_mem_unit (by decide)),
    View.ld_canon_single_eq_ld_over (Val := Elt Ideal) (e := .bf16) xs Cert.KernelIdeal.Hand.rInt1 _ Cert.KernelIdeal.Hand.rT1_12 (View.unit_emb_mem_unit (by decide)),
    View.ld_canon_single_eq_ld_over (Val := Elt Ideal) (e := .f32) xs Cert.ReferenceIdeal.Hand.rT1_11 _ Cert.ReferenceIdeal.Hand.rT1_11 Cert.ReferenceIdeal.Hand.rT1_11.toLoadRect.idx_mem, hP]

theorem stepB1_eq (x0 x1 : Cert.ReferenceIdeal.S1x128.Idx → EReal) (x2 : Cert.ReferenceIdeal.S1x56x56x128.Idx → EReal) (x3 : Cert.ReferenceIdeal.S1152x128.Idx → EReal)
    (xo5 xo6 : Cert.ReferenceIdeal.S1x128.Idx → EReal) (xs : Cert.ReferenceIdeal.S58x58x128.Idx → EReal) :
    Cert.KernelIdeal.Hand.stepB1 (F := Ideal) x0 x1 x2 x3 xo5 xo6 xs = Cert.ReferenceIdeal.Hand.stepB1 (F := Ideal) x0 x1 x2 x3 xo5 xo6 xs := by
  unfold Cert.KernelIdeal.Hand.stepB1 Cert.ReferenceIdeal.Hand.stepB1
  dsimp only
  rw [taps1_eq, taps1_eq, taps1_eq, padK1_eq]
  rfl

theorem stepA1_eq (x0 x1 : Cert.ReferenceIdeal.S1x128.Idx → EReal) (x2 : Cert.ReferenceIdeal.S1x56x56x128.Idx → EReal) (x3 : Cert.ReferenceIdeal.S1152x128.Idx → EReal) :
    Cert.KernelIdeal.Hand.stepA1 (F := Ideal) x0 x1 x2 x3 = Cert.ReferenceIdeal.Hand.stepA1 (F := Ideal) x0 x1 x2 x3 := by
  unfold Cert.KernelIdeal.Hand.stepA1 Cert.ReferenceIdeal.Hand.stepA1
  dsimp only
  rw [canonK1_eq]
  rfl

end Cert.Bridge

end
-- ==== Proof.BridgeR1Ind.lean ====
import proofs.«162787_g2000605952690631_pallasbulk_304_2_alg».proof.Proof.BridgeR1
import proofs.«162787_g2000605952690631_pallasbulk_304_2_alg».proof.Proof.BridgeR0Ind
import proofs.«162787_g2000605952690631_pallasbulk_304_2_alg».proof.Proof.KI.R01Blocks
import proofs.«162787_g2000605952690631_pallasbulk_304_2_alg».proof.Proof.RI.R01Blocks
import proofs.«162787_g2000605952690631_pallasbulk_304_2_alg».proof.Proof.KI.R01Arrays
import proofs.«162787_g2000605952690631_pallasbulk_304_2_alg».proof.Proof.RI.R01Arrays

set_option maxRecDepth 16384

noncomputable section

namespace Cert.Bridge

open Idealize.ShloMosaic Idealize.ShloMosaic.TcCoe Idealize.ShloMosaic.ValueIdx
open Idealize.SL Idealize.SL.Sem

section Region1

variable (VK : KV) (VR : RV) (c : Dev Cert.KernelIdeal.nD)
  (hx : VK c Cert.KernelIdeal.main_v6_0 = VR c Cert.ReferenceIdeal.main_v4_0)
  (hw : VK c Cert.KernelIdeal.main_v3 = VR c Cert.ReferenceIdeal.main_v1)
  (hs : VK c Cert.KernelIdeal.main_v19 = VR c Cert.ReferenceIdeal.main_v17)
  (hb : VK c Cert.KernelIdeal.main_v22 = VR c Cert.ReferenceIdeal.main_v20)

include hx in
theorem iblk1_2_eq (n : ℕ) (hK : n < Cert.KernelIdeal.cfg1.N) (hR : n < Cert.ReferenceIdeal.cfg1.N) :
    (Cert.KernelIdeal.Hand.iblk1 VK c 2 ⟨n, hK⟩ : Cert.ReferenceIdeal.S1x56x56x128.Idx → EReal) = Cert.ReferenceIdeal.Hand.iblk1 VR c 2 ⟨n, hR⟩ := by
  funext y
  obtain ⟨a, h, w, ch, rfl⟩ : ∃ (a : Fin 1) (h w : Fin 56) (ch : Fin 128), y = ix4 a h w ch := ⟨y 0, y 1, y 2, y 3, eq_ix4 y⟩
  obtain rfl : a = 0 := Subsingleton.elim _ _
  exact (Cert.KernelIdeal.Hand.iblk1_2_at VK c _ h w ch).trans ((congrFun hx _).trans (Cert.ReferenceIdeal.Hand.iblk1_2_at VR c _ h w ch).symm)

include hw in
theorem iblk1_3_eq (tK : Fin Cert.KernelIdeal.cfg1.N) (tR : Fin Cert.ReferenceIdeal.cfg1.N) :
    (Cert.KernelIdeal.Hand.iblk1 VK c 3 tK : Cert.ReferenceIdeal.S1152x128.Idx → EReal) = Cert.ReferenceIdeal.Hand.iblk1 VR c 3 tR :=
  (Cert.KernelIdeal.Hand.iblk1_3_eq VK c tK).trans (hw.trans (Cert.ReferenceIdeal.Hand.iblk1_3_eq VR c tR).symm)

include hs in
theorem iblk1_0_eq' (tK : Fin Cert.KernelIdeal.cfg1.N) (tR : Fin Cert.ReferenceIdeal.cfg1.N) :
    (Cert.KernelIdeal.Hand.iblk1 VK c 0 tK : Cert.ReferenceIdeal.S1x128.Idx → EReal) = Cert.ReferenceIdeal.Hand.iblk1 VR c 0 tR :=
  (Cert.KernelIdeal.Hand.iblk1_0_eq VK c tK).trans (hs.trans (Cert.ReferenceIdeal.Hand.iblk1_0_eq VR c tR).symm)

include hb in
theorem iblk1_1_eq' (tK : Fin Cert.KernelIdeal.cfg1.N) (tR : Fin Cert.ReferenceIdeal.cfg1.N) :
    (Cert.KernelIdeal.Hand.iblk1 VK c 1 tK : Cert.ReferenceIdeal.S1x128.Idx → EReal) = Cert.ReferenceIdeal.Hand.iblk1 VR c 1 tR :=
  (Cert.KernelIdeal.Hand.iblk1_1_eq VK c tK).trans (hb.trans (Cert.ReferenceIdeal.Hand.iblk1_1_eq VR c tR).symm)

include hx hw hs hb in
/-- Equal blocks go in at every image and the steps are one function, so the running state agrees after every image. -/
theorem outsAt1_eq : ∀ (n : ℕ) (hK : n < Cert.KernelIdeal.cfg1.N) (hR : n < Cert.ReferenceIdeal.cfg1.N),
    Cert.KernelIdeal.Hand.outsAt1 VK c n hK = Cert.ReferenceIdeal.Hand.outsAt1 VR c n hR
  | 0, hK, hR => by
    show Cert.KernelIdeal.Hand.outA1 VK c ⟨0, hK⟩ _ = Cert.ReferenceIdeal.Hand.outA1 VR c ⟨0, hR⟩ _
    rw [Cert.KernelIdeal.Hand.outA1_eq, Cert.ReferenceIdeal.Hand.outA1_eq, iblk1_0_eq' VK VR c hs ⟨0, hK⟩ ⟨0, hR⟩, iblk1_1_eq' VK VR c hb ⟨0, hK⟩ ⟨0, hR⟩, iblk1_2_eq VK VR c hx (0) hK hR, iblk1_3_eq VK VR c hw ⟨0, hK⟩ ⟨0, hR⟩]
    exact stepA1_eq _ _ _ _
  | n + 1, hK, hR => by
    show Cert.KernelIdeal.Hand.outB1 VK c ⟨n + 1, hK⟩ _ _ _ _ = Cert.ReferenceIdeal.Hand.outB1 VR c ⟨n + 1, hR⟩ _ _ _ _
    rw [Cert.KernelIdeal.Hand.outB1_eq, Cert.ReferenceIdeal.Hand.outB1_eq, outsAt1_eq n (Nat.lt_of_succ_lt hK) (Nat.lt_of_succ_lt hR), iblk1_0_eq' VK VR c hs ⟨n + 1, hK⟩ ⟨n + 1, hR⟩, iblk1_1_eq' VK VR c hb ⟨n + 1, hK⟩ ⟨n + 1, hR⟩, iblk1_2_eq VK VR c hx (n + 1) hK hR, iblk1_3_eq VK VR c hw ⟨n + 1, hK⟩ ⟨n + 1, hR⟩]
    exact stepB1_eq _ _ _ _ _ _ _

include hx hw hs hb in
theorem prod1_eq :
    ((Cert.KernelIdeal.Hand.dat1 VK c).arrAt 4 Cert.KernelIdeal.cfg1.N : Cert.ReferenceIdeal.S32x56x56x128.Idx → EReal) = (Cert.ReferenceIdeal.Hand.dat1 VR c).arrAt 4 Cert.ReferenceIdeal.cfg1.N := by
  funext i
  obtain ⟨n, h, w, ch, rfl⟩ : ∃ (n : Fin 32) (h w : Fin 56) (ch : Fin 128), i = ix4 n h w ch := ⟨i 0, i 1, i 2, i 3, eq_ix4 i⟩
  exact (Cert.KernelIdeal.Hand.final1_4 VK c n h w ch).trans
    ((congrArg (fun p => (p.1 : Cert.ReferenceIdeal.S1x56x56x128.Idx → EReal) (ix4 0 h w ch)) (outsAt1_eq VK VR c hx hw hs hb n.val _ _)).trans
      (Cert.ReferenceIdeal.Hand.final1_4 VR c n h w ch).symm)

include hx hw hs hb in
theorem sum1_eq :
    ((Cert.KernelIdeal.Hand.dat1 VK c).arrAt 5 Cert.KernelIdeal.cfg1.N : Cert.ReferenceIdeal.S1x128.Idx → EReal) = (Cert.ReferenceIdeal.Hand.dat1 VR c).arrAt 5 Cert.ReferenceIdeal.cfg1.N :=
  (Cert.KernelIdeal.Hand.final1_5 VK c).trans ((congrArg (fun p => p.2.1) (outsAt1_eq VK VR c hx hw hs hb 31 _ _)).trans (Cert.ReferenceIdeal.Hand.final1_5 VR c).symm)

include hx hw hs hb in
theorem sumsq1_eq :
    ((Cert.KernelIdeal.Hand.dat1 VK c).arrAt 6 Cert.KernelIdeal.cfg1.N : Cert.ReferenceIdeal.S1x128.Idx → EReal) = (Cert.ReferenceIdeal.Hand.dat1 VR c).arrAt 6 Cert.ReferenceIdeal.cfg1.N :=
  (Cert.KernelIdeal.Hand.final1_6 VK c).trans ((congrArg (fun p => p.2.2.1) (outsAt1_eq VK VR c hx hw hs hb 31 _ _)).trans (Cert.ReferenceIdeal.Hand.final1_6 VR c).symm)

end Region1

end Cert.Bridge

end
-- ==== Proof.Spec.lean ====
import Idealize.ShloMosaic.PureOps.Ideal
import Idealize.ShloMosaic.Lib.ValueIdx

noncomputable section

namespace Cert.Spec

def bnRelu (x s b : EReal) : EReal := max (x * s + b) 0

end Cert.Spec

end
-- ==== Proof.KI.R2Value.lean ====
import proofs.«162787_g2000605952690631_pallasbulk_304_2_alg».proof.Proof.KI.R2
import proofs.«162787_g2000605952690631_pallasbulk_304_2_alg».proof.Proof.Spec
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window cellOf)

section Region2Value

theorem hz2_2 : (![0, 0] : Fin 2 → Nat) = fun _ => 0 := funext fun a => by fin_cases a <;> rfl
theorem hz2_3 : (![0, 0, 0] : Fin 3 → Nat) = fun _ => 0 := funext fun a => by fin_cases a <;> rfl

theorem row_bcast_apply (v : S1x1x7168.Idx → EReal) (a : Fin 4) (b : Fin 56) (l : Fin 7168) :
    broadcastTo S4x56x7168 v broadcasts_S1x1x7168_S4x56x7168 (ix3 a b l) = v (ix3 (0 : Fin 1) (0 : Fin 1) l) :=
  broadcastTo_apply v _ _ _ fun ax => by fin_cases ax <;> rfl

theorem pay2_apply (v0 : Vec Ideal S4x56x7168 .bf16) (v3 : Vec Ideal S1x7168 .f32) (v8 : Vec Ideal S1x7168 .f32)
    (a : Fin 4) (b : Fin 56) (l : Fin 7168) :
    k2_pay1 (F := Ideal) v0 v3 v8 (ix3 a b l) = Cert.Spec.bnRelu (v0 (ix3 a b l)) (v3 (ix2 (0 : Fin 1) l)) (v8 (ix2 (0 : Fin 1) l)) := by
  unfold k2_pay1 Cert.Spec.bnRelu
  rw [maximumf_apply, addf_apply, mulf_apply, extf_apply, broadcast_apply, row_bcast_apply, row_bcast_apply,
    shapeCast_ab_1ab_apply, shapeCast_ab_1ab_apply, shapeCast_self, shapeCast_self, shapeCast_self,
    Ideal.ofBits_def, Ideal.ofBits_zero_f32]

variable (V : (c : Dev nD) → (b : Ref sig .tc) → Buf (Elt Ideal) ((c : Thread nD τ).loc b))

def G2 (c : Dev nD) : Vec Ideal S32x56x7168 .f32 := fun i =>
  Cert.Spec.bnRelu (V c main_v40 i) (V c main_v43 (ix2 (0 : Fin 1) (i 2))) (V c main_v46 (ix2 (0 : Fin 1) (i 2)))

theorem idx_facts2 : ∀ t : Fin cfg2.N,
    (∀ a, win2_0.index t a = 0) ∧ (∀ a, win2_1.index t a = 0)
    ∧ (∀ a, win2_2.index t a = win2_3.index t a)
    ∧ win2_3.index t (0 : Fin 3) = t.val ∧ win2_3.index t (1 : Fin 3) = 0 ∧ win2_3.index t (2 : Fin 3) = 0 :=
  (by decide +kernel : ∀ t : Fin grid2.N, _)

-- Input and output blocks sit at the same offsets and the rows are whole, so the payload at an index is `G2` there.
theorem flushed2_eq (c : Dev nD) (t : Fin cfg2.N) :
    (dat2 (F := Ideal) V c).flushed 3 t = ((cfg2.win 3).blk t).view.read (Elt Ideal) (G2 V c) := by
  show (cfg2.win 3).cut (grid2.coords t) ((dat2 (F := Ideal) V c).after 3 t) = _
  rw [after2_3]
  unfold out2_3
  rw [View.canon_unit_zero hz2_3]
  simp only [View.ld_unit_zero (S := S4x56x7168) hz2_3, View.ld_unit_zero (S := S1x7168) hz2_2]
  obtain ⟨e0, e1, e23, -, -, e32⟩ := idx_facts2 t
  funext j
  obtain ⟨a, b, l, rfl⟩ : ∃ (a : Fin 4) (b : Fin 56) (l : Fin 7168), j = ix3 a b l := ⟨j 0, j 1, j 2, eq_ix3 j⟩
  show k2_pay1 (F := Ideal) (iblk2 V c 2 t) (iblk2 V c 0 t) (iblk2 V c 1 t) (ix3 a b l)
    = G2 V c (((cfg2.win 3).blk t).view.emb (ix3 a b l))
  refine (pay2_apply (iblk2 V c 2 t) (iblk2 V c 0 t) (iblk2 V c 1 t) a b l).trans ?_
  have hx : (iblk2 V c 2 t : Vec Ideal S4x56x7168 .bf16) (ix3 a b l)
      = V c main_v40 (((cfg2.win 3).blk t).view.emb (ix3 a b l)) := by
    show V c main_v40 (((cfg2.win 2).blk t).view.emb (ix3 a b l)) = _
    refine congrArg (V c main_v40) (funext fun ax => Fin.ext ?_)
    show ((win2_2.rect t).emb (ix3 a b l) ax : ℕ) = (win2_3.rect t).emb (ix3 a b l) ax
    rw [win2_2.rect_emb_val, win2_3.rect_emb_val, e23]
  have hl : ((((cfg2.win 3).blk t).view.emb (ix3 a b l)) 2 : Fin 7168) = l :=
    Fin.ext (win2_3.rect_emb_val_of_index_zero t 2 e32 (ix3 a b l))
  have hs : (iblk2 V c 0 t : Vec Ideal S1x7168 .f32) (ix2 (0 : Fin 1) l) = V c main_v43 (ix2 (0 : Fin 1) l) :=
    congrArg (V c main_v43) (funext fun ax => Fin.ext (win2_0.rect_emb_val_of_index_zero t ax (e0 ax) _))
  have hb : (iblk2 V c 1 t : Vec Ideal S1x7168 .f32) (ix2 (0 : Fin 1) l) = V c main_v46 (ix2 (0 : Fin 1) l) :=
    congrArg (V c main_v46) (funext fun ax => Fin.ext (win2_1.rect_emb_val_of_index_zero t ax (e1 ax) _))
  rw [hx, hs, hb]
  unfold G2
  rw [hl]

-- Image `n` lies in the block of point `n / 4`.
theorem cover2 (i : S32x56x7168.Idx) :
    ∃ t : Fin cfg2.N, (cfg2.win 3).flush t = true ∧ i ∈ ((cfg2.win 3).blk t).view.set := by
  have hi0 : (i 0).val < 32 := (i 0).isLt
  have hi1 : (i 1).val < 56 := (i 1).isLt
  have hi2 : (i 2).val < 7168 := (i 2).isLt
  have hN : cfg2.N = 8 := N_2
  obtain ⟨t, ht⟩ : ∃ t : Fin cfg2.N, t.val = (i 0).val / 4 := ⟨⟨(i 0).val / 4, by rw [hN]; omega⟩, rfl⟩
  obtain ⟨-, -, -, e30, e31, e32⟩ := idx_facts2 t
  refine ⟨t, flush2_3 t, ?_⟩
  show i ∈ ((View.whole main_v47).slice (win2_3.rect t)).set
  rw [View.set_slice_whole, Rect.mem_set_unit]
  intro a
  match a with
  | ⟨0, _⟩ => show win2_3.index t (0 : Fin 3) * 4 ≤ (i 0).val ∧ (i 0).val < win2_3.index t (0 : Fin 3) * 4 + 4; rw [e30, ht]; omega
  | ⟨1, _⟩ => show win2_3.index t (1 : Fin 3) * 56 ≤ (i 1).val ∧ (i 1).val < win2_3.index t (1 : Fin 3) * 56 + 56; rw [e31]; omega
  | ⟨2, _⟩ => show win2_3.index t (2 : Fin 3) * 7168 ≤ (i 2).val ∧ (i 2).val < win2_3.index t (2 : Fin 3) * 7168 + 7168; rw [e32]; omega

-- Each point's block of the result is that block of `G2`, and the blocks cover the array.
theorem final2_apply (c : Dev nD) (i : S32x56x7168.Idx) :
    (dat2 (F := Ideal) V c).arrAt 3 cfg2.N i
      = Cert.Spec.bnRelu (V c main_v40 i) (V c main_v43 (ix2 (0 : Fin 1) (i 2))) (V c main_v46 (ix2 (0 : Fin 1) (i 2))) :=
  congrFun ((dat2 (F := Ideal) V c).arrAt_eq_of_cover 3 (G2 V c) (fun t _ => flushed2_eq V c t) cover2) i

end Region2Value

end Cert.KernelIdeal.Hand

end
-- ==== Proof.RI.R2Value.lean ====
import proofs.«162787_g2000605952690631_pallasbulk_304_2_alg».proof.Proof.RI.R2
import proofs.«162787_g2000605952690631_pallasbulk_304_2_alg».proof.Proof.Spec
import Idealize.ShloMosaic.Lib.Pipeline.Value
import Idealize.ShloMosaic.Lib.ValueLayout
import Idealize.ShloMosaic.PureOps.Ideal.Laws

noncomputable section

namespace Cert.ReferenceIdeal.Hand

open Cert.ReferenceIdeal Cert.ReferenceIdeal.Gen
open Idealize.ShloMosaic Idealize.ShloMosaic.TcCoe Idealize.ShloMosaic.ValueIdx
open Idealize.SL.Sem
open Idealize.ShloMosaic.Pipeline (Dat Cfg Window cellOf)

section Region2Value

theorem hz2_2 : (![0, 0] : Fin 2 → Nat) = fun _ => 0 := funext fun a => by fin_cases a <;> rfl
theorem hz2_3 : (![0, 0, 0] : Fin 3 → Nat) = fun _ => 0 := funext fun a => by fin_cases a <;> rfl

theorem row_bcast_apply (v : S1x1x7168.Idx → EReal) (a : Fin 1) (b : Fin 56) (l : Fin 7168) :
    broadcastTo S1x56x7168 v broadcasts_S1x1x7168_S1x56x7168 (ix3 a b l) = v (ix3 (0 : Fin 1) (0 : Fin 1) l) :=
  broadcastTo_apply v _ _ _ fun ax => by fin_cases ax <;> rfl

theorem pay2_apply (v0 : Vec Ideal S1x56x7168 .f32) (v3 : Vec Ideal S1x7168 .f32) (v8 : Vec Ideal S1x7168 .f32)
    (a : Fin 1) (b : Fin 56) (l : Fin 7168) :
    k2_pay1 (F := Ideal) v0 v3 v8 (ix3 a b l) = Cert.Spec.bnRelu (v0 (ix3 a b l)) (v3 (ix2 (0 : Fin 1) l)) (v8 (ix2 (0 : Fin 1) l)) := by
  unfold k2_pay1 Cert.Spec.bnRelu
  rw [maximumf_apply, addf_apply, mulf_apply, broadcast_apply, row_bcast_apply, row_bcast_apply,
    shapeCast_ab_1ab_apply, shapeCast_ab_1ab_apply, shapeCast_self, shapeCast_self, shapeCast_self,
    Ideal.ofBits_def, Ideal.ofBits_zero_f32]

variable (V : (c : Dev nD) → (b : Ref sig .tc) → Buf (Elt Ideal) ((c : Thread nD τ).loc b))

def G2 (c : Dev nD) : Vec Ideal S32x56x7168 .f32 := fun i =>
  Cert.Spec.bnRelu (V c main_v38 i) (V c main_v41 (ix2 (0 : Fin 1) (i 2))) (V c main_v44 (ix2 (0 : Fin 1) (i 2)))

theorem idx_facts2 : ∀ t : Fin cfg2.N,
    (∀ a, win2_0.index t a = 0) ∧ (∀ a, win2_1.index t a = 0)
    ∧ (∀ a, win2_2.index t a = win2_3.index t a)
    ∧ win2_3.index t (0 : Fin 3) = t.val ∧ win2_3.index t (1 : Fin 3) = 0 ∧ win2_3.index t (2 : Fin 3) = 0 :=
  (by decide +kernel : ∀ t : Fin grid2.N, _)

-- Input and output blocks sit at the same offsets and the rows are whole, so the payload at an index is `G2` there.
theorem flushed2_eq (c : Dev nD) (t : Fin cfg2.N) :
    (dat2 (F := Ideal) V c).flushed 3 t = ((cfg2.win 3).blk t).view.read (Elt Ideal) (G2 V c) := by
  show (cfg2.win 3).cut (grid2.coords t) ((dat2 (F := Ideal) V c).after 3 t) = _
  rw [after2_3]
  unfold out2_3
  rw [View.canon_unit_zero hz2_3]
  simp only [View.ld_unit_zero (S := S1x56x7168) hz2_3, View.ld_unit_zero (S := S1x7168) hz2_2]
  obtain ⟨e0, e1, e23, -, -, e32⟩ := idx_facts2 t
  funext j
  obtain ⟨a, b, l, rfl⟩ : ∃ (a : Fin 1) (b : Fin 56) (l : Fin 7168), j = ix3 a b l := ⟨j 0, j 1, j 2, eq_ix3 j⟩
  show k2_pay1 (F := Ideal) (iblk2 V c 2 t) (iblk2 V c 0 t) (iblk2 V c 1 t) (ix3 a b l)
    = G2 V c (((cfg2.win 3).blk t).view.emb (ix3 a b l))
  refine (pay2_apply (iblk2 V c 2 t) (iblk2 V c 0 t) (iblk2 V c 1 t) a b l).trans ?_
  have hx : (iblk2 V c 2 t : Vec Ideal S1x56x7168 .f32) (ix3 a b l)
      = V c main_v38 (((cfg2.win 3).blk t).view.emb (ix3 a b l)) := by
    show V c main_v38 (((cfg2.win 2).blk t).view.emb (ix3 a b l)) = _
    refine congrArg (V c main_v38) (funext fun ax => Fin.ext ?_)
    show ((win2_2.rect t).emb (ix3 a b l) ax : ℕ) = (win2_3.rect t).emb (ix3 a b l) ax
    rw [win2_2.rect_emb_val, win2_3.rect_emb_val, e23]
  have hl : ((((cfg2.win 3).blk t).view.emb (ix3 a b l)) 2 : Fin 7168) = l :=
    Fin.ext (win2_3.rect_emb_val_of_index_zero t 2 e32 (ix3 a b l))
  have hs : (iblk2 V c 0 t : Vec Ideal S1x7168 .f32) (ix2 (0 : Fin 1) l) = V c main_v41 (ix2 (0 : Fin 1) l) :=
    congrArg (V c main_v41) (funext fun ax => Fin.ext (win2_0.rect_emb_val_of_index_zero t ax (e0 ax) _))
  have hb : (iblk2 V c 1 t : Vec Ideal S1x7168 .f32) (ix2 (0 : Fin 1) l) = V c main_v44 (ix2 (0 : Fin 1) l) :=
    congrArg (V c main_v44) (funext fun ax => Fin.ext (win2_1.rect_emb_val_of_index_zero t ax (e1 ax) _))
  rw [hx, hs, hb]
  unfold G2
  rw [hl]

-- Image `n` is the block of point `n`.
theorem cover2 (i : S32x56x7168.Idx) :
    ∃ t : Fin cfg2.N, (cfg2.win 3).flush t = true ∧ i ∈ ((cfg2.win 3).blk t).view.set := by
  have hi0 : (i 0).val < 32 := (i 0).isLt
  have hi1 : (i 1).val < 56 := (i 1).isLt
  have hi2 : (i 2).val < 7168 := (i 2).isLt
  have hN : cfg2.N = 32 := N_2
  obtain ⟨t, ht⟩ : ∃ t : Fin cfg2.N, t.val = (i 0).val := ⟨⟨(i 0).val, by rw [hN]; omega⟩, rfl⟩
  obtain ⟨-, -, -, e30, e31, e32⟩ := idx_facts2 t
  refine ⟨t, flush2_3 t, ?_⟩
  show i ∈ ((View.whole main_v45).slice (win2_3.rect t)).set
  rw [View.set_slice_whole, Rect.mem_set_unit]
  intro a
  match a with
  | ⟨0, _⟩ => show win2_3.index t (0 : Fin 3) * 1 ≤ (i 0).val ∧ (i 0).val < win2_3.index t (0 : Fin 3) * 1 + 1; rw [e30, ht]; omega
  | ⟨1, _⟩ => show win2_3.index t (1 : Fin 3) * 56 ≤ (i 1).val ∧ (i 1).val < win2_3.index t (1 : Fin 3) * 56 + 56; rw [e31]; omega
  | ⟨2, _⟩ => show win2_3.index t (2 : Fin 3) * 7168 ≤ (i 2).val ∧ (i 2).val < win2_3.index t (2 : Fin 3) * 7168 + 7168; rw [e32]; omega

-- Each point's block of the result is that block of `G2`, and the blocks cover the array.
theorem final2_apply (c : Dev nD) (i : S32x56x7168.Idx) :
    (dat2 (F := Ideal) V c).arrAt 3 cfg2.N i
      = Cert.Spec.bnRelu (V c main_v38 i) (V c main_v41 (ix2 (0 : Fin 1) (i 2))) (V c main_v44 (ix2 (0 : Fin 1) (i 2))) :=
  congrFun ((dat2 (F := Ideal) V c).arrAt_eq_of_cover 3 (G2 V c) (fun t _ => flushed2_eq V c t) cover2) i

end Region2Value

end Cert.ReferenceIdeal.Hand

end
-- ==== Proof.BridgeAll.lean ====
import proofs.«162787_g2000605952690631_pallasbulk_304_2_alg».proof.Proof.KI.Run
import proofs.«162787_g2000605952690631_pallasbulk_304_2_alg».proof.Proof.RI.Run
import proofs.«162787_g2000605952690631_pallasbulk_304_2_alg».proof.Proof.KI.HostVal
import proofs.«162787_g2000605952690631_pallasbulk_304_2_alg».proof.Proof.RI.HostVal
import proofs.«162787_g2000605952690631_pallasbulk_304_2_alg».proof.Proof.BridgeR0Ind
import proofs.«162787_g2000605952690631_pallasbulk_304_2_alg».proof.Proof.BridgeR1Ind
import proofs.«162787_g2000605952690631_pallasbulk_304_2_alg».proof.Proof.KI.R2Value
import proofs.«162787_g2000605952690631_pallasbulk_304_2_alg».proof.Proof.RI.R2Value
import proofs.«162787_g2000605952690631_pallasbulk_304_2_alg».proof.Defs
import proofs.«162787_g2000605952690631_pallasbulk_304_2_alg».proof.Proof.Gen.Pre_finite_inputs

set_option maxRecDepth 16384

noncomputable section

namespace Cert.Bridge

open Idealize.ShloMosaic Idealize.ShloMosaic.TcCoe Idealize.ShloMosaic.ValueIdx
open Idealize.SL Idealize.SL.Sem

section Fold

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (ρ' : Dev Cert.ReferenceIdeal.nD → PrngReg)
variable (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
variable (c : Dev Cert.KernelIdeal.nD)

theorem K2_arg (r : Ref Cert.KernelIdeal.sig .tc) (h0 : r ∉ Cert.KernelIdeal.Gen.hostOps0_W) (h : ∀ w, Pipeline.arrRef Cert.KernelIdeal.spec0 w ≠ r) :
    Cert.KernelIdeal.Hand.W2 m ρ c (Proc.devRef .tc r) = m ((c.tc : Thread Cert.KernelIdeal.nD Cert.KernelIdeal.τ).loc r) :=
  (Cert.KernelIdeal.Hand.W2_of_ne m ρ c r h).trans (Cert.KernelIdeal.Hand.host0_keep _ r h0)
theorem R2_arg (r : Ref Cert.ReferenceIdeal.sig .tc) (h0 : r ∉ Cert.ReferenceIdeal.Gen.hostOps0_W) (h : ∀ w, Pipeline.arrRef Cert.ReferenceIdeal.spec0 w ≠ r) :
    Cert.ReferenceIdeal.Hand.W2 m' ρ' c (Proc.devRef .tc r) = m' ((c.tc : Thread Cert.ReferenceIdeal.nD Cert.ReferenceIdeal.τ).loc r) :=
  (Cert.ReferenceIdeal.Hand.W2_of_ne m' ρ' c r h).trans (Cert.ReferenceIdeal.Hand.host0_keep _ r h0)
theorem K4_arg (r : Ref Cert.KernelIdeal.sig .tc) (h0 : r ∉ Cert.KernelIdeal.Gen.hostOps0_W) (h : ∀ w, Pipeline.arrRef Cert.KernelIdeal.spec0 w ≠ r)
    (h1 : r ∉ Cert.KernelIdeal.Gen.hostOps1_W) (h' : ∀ w, Pipeline.arrRef Cert.KernelIdeal.spec1 w ≠ r) :
    Cert.KernelIdeal.Hand.W4 m ρ c (Proc.devRef .tc r) = m ((c.tc : Thread Cert.KernelIdeal.nD Cert.KernelIdeal.τ).loc r) :=
  (Cert.KernelIdeal.Hand.W4_of_ne m ρ c r h').trans ((Cert.KernelIdeal.Hand.host1_keep _ r h1).trans (K2_arg m ρ c r h0 h))
theorem R4_arg (r : Ref Cert.ReferenceIdeal.sig .tc) (h0 : r ∉ Cert.ReferenceIdeal.Gen.hostOps0_W) (h : ∀ w, Pipeline.arrRef Cert.ReferenceIdeal.spec0 w ≠ r)
    (h1 : r ∉ Cert.ReferenceIdeal.Gen.hostOps1_W) (h' : ∀ w, Pipeline.arrRef Cert.ReferenceIdeal.spec1 w ≠ r) :
    Cert.ReferenceIdeal.Hand.W4 m' ρ' c (Proc.devRef .tc r) = m' ((c.tc : Thread Cert.ReferenceIdeal.nD Cert.ReferenceIdeal.τ).loc r) :=
  (Cert.ReferenceIdeal.Hand.W4_of_ne m' ρ' c r h').trans ((Cert.ReferenceIdeal.Hand.host1_keep _ r h1).trans (R2_arg m' ρ' c r h0 h))

include hag in
theorem e1_x : Cert.KernelIdeal.Hand.V1 m ρ c Cert.KernelIdeal.main_arg0 = Cert.ReferenceIdeal.Hand.V1 m' ρ' c Cert.ReferenceIdeal.main_arg0 :=
  (Cert.KernelIdeal.Hand.host0_keep _ _ (by decide)).trans ((hag c).1.symm.trans (Cert.ReferenceIdeal.Hand.host0_keep (Cert.ReferenceIdeal.Hand.W0 m' ρ' c) Cert.ReferenceIdeal.main_arg0 (by decide)).symm)

include hag in
theorem e1_w1 : (Cert.KernelIdeal.Hand.V1 m ρ c Cert.KernelIdeal.main_v1 : Cert.ReferenceIdeal.S576x128.Idx → EReal) = Cert.ReferenceIdeal.Hand.V1 m' ρ' c Cert.ReferenceIdeal.main_v0 := by
  refine (Cert.KernelIdeal.Hand.host0_w2d1 _).trans (Eq.trans ?_ (Cert.ReferenceIdeal.Hand.host0_w2d1 (Cert.ReferenceIdeal.Hand.W0 m' ρ' c)).symm)
  exact congrArg (Cert.KernelIdeal.Hand.w2d1 (F := Ideal)) (hag c).2.1.symm

include hag in
theorem e1_w2 : (Cert.KernelIdeal.Hand.V1 m ρ c Cert.KernelIdeal.main_v3 : Cert.ReferenceIdeal.S1152x128.Idx → EReal) = Cert.ReferenceIdeal.Hand.V1 m' ρ' c Cert.ReferenceIdeal.main_v1 := by
  refine (Cert.KernelIdeal.Hand.host0_w2d2 _).trans (Eq.trans ?_ (Cert.ReferenceIdeal.Hand.host0_w2d2 (Cert.ReferenceIdeal.Hand.W0 m' ρ' c)).symm)
  exact congrArg (Cert.KernelIdeal.Hand.w2d2 (F := Ideal)) (hag c).2.2.1.symm

include hag in
theorem e2_prod : (Cert.KernelIdeal.Hand.W2 m ρ c (Proc.devRef .tc Cert.KernelIdeal.main_v6_0) : Cert.ReferenceIdeal.S32x56x56x128.Idx → EReal) = Cert.ReferenceIdeal.Hand.W2 m' ρ' c (Proc.devRef .tc Cert.ReferenceIdeal.main_v4_0) :=
  (Cert.KernelIdeal.Hand.W2_arr m ρ c 4).trans ((prod0_eq _ _ c (e1_x m ρ m' ρ' hag c) (e1_w1 m ρ m' ρ' hag c)).trans (Cert.ReferenceIdeal.Hand.W2_arr m' ρ' c 4).symm)
include hag in
theorem e2_sum : (Cert.KernelIdeal.Hand.W2 m ρ c (Proc.devRef .tc Cert.KernelIdeal.main_v6_1) : Cert.ReferenceIdeal.S1x128.Idx → EReal) = Cert.ReferenceIdeal.Hand.W2 m' ρ' c (Proc.devRef .tc Cert.ReferenceIdeal.main_v4_1) :=
  (Cert.KernelIdeal.Hand.W2_arr m ρ c 5).trans ((sum0_eq _ _ c (e1_x m ρ m' ρ' hag c) (e1_w1 m ρ m' ρ' hag c)).trans (Cert.ReferenceIdeal.Hand.W2_arr m' ρ' c 5).symm)
include hag in
theorem e2_sumsq : (Cert.KernelIdeal.Hand.W2 m ρ c (Proc.devRef .tc Cert.KernelIdeal.main_v6_2) : Cert.ReferenceIdeal.S1x128.Idx → EReal) = Cert.ReferenceIdeal.Hand.W2 m' ρ' c (Proc.devRef .tc Cert.ReferenceIdeal.main_v4_2) :=
  (Cert.KernelIdeal.Hand.W2_arr m ρ c 6).trans ((sumsq0_eq _ _ c (e1_x m ρ m' ρ' hag c) (e1_w1 m ρ m' ρ' hag c)).trans (Cert.ReferenceIdeal.Hand.W2_arr m' ρ' c 6).symm)

include hag in
theorem e3_scale : Cert.KernelIdeal.Hand.V3 m ρ c Cert.KernelIdeal.main_v19 = Cert.ReferenceIdeal.Hand.V3 m' ρ' c Cert.ReferenceIdeal.main_v17 := by
  refine (Cert.KernelIdeal.Hand.host1_scale _).trans (Eq.trans ?_ (Cert.ReferenceIdeal.Hand.host1_scale (Cert.ReferenceIdeal.Hand.W2 m' ρ' c)).symm)
  rw [e2_sum m ρ m' ρ' hag c, e2_sumsq m ρ m' ρ' hag c, K2_arg m ρ c Cert.KernelIdeal.main_arg3 (by decide) (by decide), R2_arg m' ρ' c Cert.ReferenceIdeal.main_arg3 (by decide) (by decide), (hag c).2.2.2.1]
  rfl

include hag in
theorem e3_shift : Cert.KernelIdeal.Hand.V3 m ρ c Cert.KernelIdeal.main_v22 = Cert.ReferenceIdeal.Hand.V3 m' ρ' c Cert.ReferenceIdeal.main_v20 := by
  refine (Cert.KernelIdeal.Hand.host1_shift _).trans (Eq.trans ?_ (Cert.ReferenceIdeal.Hand.host1_shift (Cert.ReferenceIdeal.Hand.W2 m' ρ' c)).symm)
  rw [e2_sum m ρ m' ρ' hag c, e2_sumsq m ρ m' ρ' hag c, K2_arg m ρ c Cert.KernelIdeal.main_arg3 (by decide) (by decide), R2_arg m' ρ' c Cert.ReferenceIdeal.main_arg3 (by decide) (by decide), (hag c).2.2.2.1,
    K2_arg m ρ c Cert.KernelIdeal.main_arg4 (by decide) (by decide), R2_arg m' ρ' c Cert.ReferenceIdeal.main_arg4 (by decide) (by decide), (hag c).2.2.2.2.1]
  rfl

include hag in
theorem e3_x : (Cert.KernelIdeal.Hand.V3 m ρ c Cert.KernelIdeal.main_v6_0 : Cert.ReferenceIdeal.S32x56x56x128.Idx → EReal) = Cert.ReferenceIdeal.Hand.V3 m' ρ' c Cert.ReferenceIdeal.main_v4_0 :=
  (Cert.KernelIdeal.Hand.host1_prod _).trans ((e2_prod m ρ m' ρ' hag c).trans (Cert.ReferenceIdeal.Hand.host1_prod _).symm)

include hag in
theorem e3_w : (Cert.KernelIdeal.Hand.V3 m ρ c Cert.KernelIdeal.main_v3 : Cert.ReferenceIdeal.S1152x128.Idx → EReal) = Cert.ReferenceIdeal.Hand.V3 m' ρ' c Cert.ReferenceIdeal.main_v1 :=
  (Cert.KernelIdeal.Hand.host1_w2d2 _).trans ((Cert.KernelIdeal.Hand.W2_of_ne m ρ c Cert.KernelIdeal.main_v3 (by decide)).trans
    ((e1_w2 m ρ m' ρ' hag c).trans ((Cert.ReferenceIdeal.Hand.W2_of_ne m' ρ' c Cert.ReferenceIdeal.main_v1 (by decide)).symm.trans (Cert.ReferenceIdeal.Hand.host1_w2d2 _).symm)))

include hag in
theorem e4_prod : (Cert.KernelIdeal.Hand.W4 m ρ c (Proc.devRef .tc Cert.KernelIdeal.main_v23_0) : Cert.ReferenceIdeal.S32x56x56x128.Idx → EReal) = Cert.ReferenceIdeal.Hand.W4 m' ρ' c (Proc.devRef .tc Cert.ReferenceIdeal.main_v21_0) :=
  (Cert.KernelIdeal.Hand.W4_arr m ρ c 4).trans ((prod1_eq _ _ c (e3_x m ρ m' ρ' hag c) (e3_w m ρ m' ρ' hag c) (e3_scale m ρ m' ρ' hag c) (e3_shift m ρ m' ρ' hag c)).trans (Cert.ReferenceIdeal.Hand.W4_arr m' ρ' c 4).symm)
include hag in
theorem e4_sum : (Cert.KernelIdeal.Hand.W4 m ρ c (Proc.devRef .tc Cert.KernelIdeal.main_v23_1) : Cert.ReferenceIdeal.S1x128.Idx → EReal) = Cert.ReferenceIdeal.Hand.W4 m' ρ' c (Proc.devRef .tc Cert.ReferenceIdeal.main_v21_1) :=
  (Cert.KernelIdeal.Hand.W4_arr m ρ c 5).trans ((sum1_eq _ _ c (e3_x m ρ m' ρ' hag c) (e3_w m ρ m' ρ' hag c) (e3_scale m ρ m' ρ' hag c) (e3_shift m ρ m' ρ' hag c)).trans (Cert.ReferenceIdeal.Hand.W4_arr m' ρ' c 5).symm)
include hag in
theorem e4_sumsq : (Cert.KernelIdeal.Hand.W4 m ρ c (Proc.devRef .tc Cert.KernelIdeal.main_v23_2) : Cert.ReferenceIdeal.S1x128.Idx → EReal) = Cert.ReferenceIdeal.Hand.W4 m' ρ' c (Proc.devRef .tc Cert.ReferenceIdeal.main_v21_2) :=
  (Cert.KernelIdeal.Hand.W4_arr m ρ c 6).trans ((sumsq1_eq _ _ c (e3_x m ρ m' ρ' hag c) (e3_w m ρ m' ρ' hag c) (e3_scale m ρ m' ρ' hag c) (e3_shift m ρ m' ρ' hag c)).trans (Cert.ReferenceIdeal.Hand.W4_arr m' ρ' c 6).symm)

include hag in
theorem e5_x : (Cert.KernelIdeal.Hand.V5 m ρ c Cert.KernelIdeal.main_v40 : Cert.ReferenceIdeal.S32x56x7168.Idx → EReal) = Cert.ReferenceIdeal.Hand.V5 m' ρ' c Cert.ReferenceIdeal.main_v38 := by
  refine (Cert.KernelIdeal.Hand.host2_flat _).trans (Eq.trans ?_ (Cert.ReferenceIdeal.Hand.host2_flat (Cert.ReferenceIdeal.Hand.W4 m' ρ' c)).symm)
  exact congrArg (Cert.KernelIdeal.Hand.flat3 (F := Ideal)) (e4_prod m ρ m' ρ' hag c)

include hag in
theorem e5_scale : Cert.KernelIdeal.Hand.V5 m ρ c Cert.KernelIdeal.main_v43 = Cert.ReferenceIdeal.Hand.V5 m' ρ' c Cert.ReferenceIdeal.main_v41 := by
  refine (Cert.KernelIdeal.Hand.host2_scale _).trans (Eq.trans ?_ (Cert.ReferenceIdeal.Hand.host2_scale (Cert.ReferenceIdeal.Hand.W4 m' ρ' c)).symm)
  rw [e4_sum m ρ m' ρ' hag c, e4_sumsq m ρ m' ρ' hag c, K4_arg m ρ c Cert.KernelIdeal.main_arg5 (by decide) (by decide) (by decide) (by decide), R4_arg m' ρ' c Cert.ReferenceIdeal.main_arg5 (by decide) (by decide) (by decide) (by decide), (hag c).2.2.2.2.2.1]
  rfl

include hag in
theorem e5_shift : Cert.KernelIdeal.Hand.V5 m ρ c Cert.KernelIdeal.main_v46 = Cert.ReferenceIdeal.Hand.V5 m' ρ' c Cert.ReferenceIdeal.main_v44 := by
  refine (Cert.KernelIdeal.Hand.host2_shift _).trans (Eq.trans ?_ (Cert.ReferenceIdeal.Hand.host2_shift (Cert.ReferenceIdeal.Hand.W4 m' ρ' c)).symm)
  rw [e4_sum m ρ m' ρ' hag c, e4_sumsq m ρ m' ρ' hag c, K4_arg m ρ c Cert.KernelIdeal.main_arg5 (by decide) (by decide) (by decide) (by decide), R4_arg m' ρ' c Cert.ReferenceIdeal.main_arg5 (by decide) (by decide) (by decide) (by decide), (hag c).2.2.2.2.2.1,
    K4_arg m ρ c Cert.KernelIdeal.main_arg6 (by decide) (by decide) (by decide) (by decide), R4_arg m' ρ' c Cert.ReferenceIdeal.main_arg6 (by decide) (by decide) (by decide) (by decide), (hag c).2.2.2.2.2.2]
  rfl

include hag in
theorem e6_out : (Cert.KernelIdeal.Hand.W6 m ρ c (Proc.devRef .tc Cert.KernelIdeal.main_v47) : Cert.ReferenceIdeal.S32x56x7168.Idx → EReal) = Cert.ReferenceIdeal.Hand.W6 m' ρ' c (Proc.devRef .tc Cert.ReferenceIdeal.main_v45) := by
  refine (Cert.KernelIdeal.Hand.W6_arr m ρ c 3).trans (Eq.trans ?_ (Cert.ReferenceIdeal.Hand.W6_arr m' ρ' c 3).symm)
  funext i
  rw [Cert.KernelIdeal.Hand.final2_apply, Cert.ReferenceIdeal.Hand.final2_apply, congrFun (e5_x m ρ m' ρ' hag c) i, e5_scale m ρ m' ρ' hag c, e5_shift m ρ m' ρ' hag c]

include hag in
theorem e7_result : (Cert.KernelIdeal.Hand.W7 m ρ c (Proc.devRef .tc Cert.KernelIdeal.main_v48) : Cert.ReferenceIdeal.S32x56x56x128.Idx → EReal) = Cert.ReferenceIdeal.Hand.W7 m' ρ' c (Proc.devRef .tc Cert.ReferenceIdeal.main_v46) := by
  refine (Cert.KernelIdeal.Hand.host3_unflat _).trans (Eq.trans ?_ (Cert.ReferenceIdeal.Hand.host3_unflat (Cert.ReferenceIdeal.Hand.W6 m' ρ' c)).symm)
  exact congrArg (Cert.KernelIdeal.Hand.unflat (F := Ideal)) (e6_out m ρ m' ρ' hag c)

end Fold

theorem algebraic : Cert.algebraic_KernelIdeal_ReferenceIdeal := by
  intro m ρ m' ρ' _ hag
  refine ⟨fun c => Cert.KernelIdeal.Hand.W7 m ρ c (Proc.devRef .tc Cert.KernelIdeal.main_v48), ?_, ?_⟩
  · refine (θ_run Cert.KernelIdeal.defs _ _).mono (fun r h c => ?_) (Cert.KernelIdeal.Hand.run_all m ρ)
    exact ⟨h c _ (Cert.KernelIdeal.Hand.mem_uc Cert.KernelIdeal.main_v48 (by decide)),
      (h c _ (Cert.KernelIdeal.Hand.mem_uc _ (by decide))).trans (Cert.KernelIdeal.Hand.W7_main_arg0 m ρ c),
      (h c _ (Cert.KernelIdeal.Hand.mem_uc _ (by decide))).trans (Cert.KernelIdeal.Hand.W7_main_arg1 m ρ c),
      (h c _ (Cert.KernelIdeal.Hand.mem_uc _ (by decide))).trans (Cert.KernelIdeal.Hand.W7_main_arg2 m ρ c),
      (h c _ (Cert.KernelIdeal.Hand.mem_uc _ (by decide))).trans (Cert.KernelIdeal.Hand.W7_main_arg3 m ρ c),
      (h c _ (Cert.KernelIdeal.Hand.mem_uc _ (by decide))).trans (Cert.KernelIdeal.Hand.W7_main_arg4 m ρ c),
      (h c _ (Cert.KernelIdeal.Hand.mem_uc _ (by decide))).trans (Cert.KernelIdeal.Hand.W7_main_arg5 m ρ c),
      (h c _ (Cert.KernelIdeal.Hand.mem_uc _ (by decide))).trans (Cert.KernelIdeal.Hand.W7_main_arg6 m ρ c)⟩
  · refine (θ_run Cert.ReferenceIdeal.defs _ _).mono (fun r h c => ?_) (Cert.ReferenceIdeal.Hand.run_all m' ρ')
    exact ⟨(h c _ (Cert.ReferenceIdeal.Hand.mem_uc _ (by decide))).trans (e7_result m ρ m' ρ' hag c).symm,
      (h c _ (Cert.ReferenceIdeal.Hand.mem_uc _ (by decide))).trans (Cert.ReferenceIdeal.Hand.W7_main_arg0 m' ρ' c),
      (h c _ (Cert.ReferenceIdeal.Hand.mem_uc _ (by decide))).trans (Cert.ReferenceIdeal.Hand.W7_main_arg1 m' ρ' c),
      (h c _ (Cert.ReferenceIdeal.Hand.mem_uc _ (by decide))).trans (Cert.ReferenceIdeal.Hand.W7_main_arg2 m' ρ' c),
      (h c _ (Cert.ReferenceIdeal.Hand.mem_uc _ (by decide))).trans (Cert.ReferenceIdeal.Hand.W7_main_arg3 m' ρ' c),
      (h c _ (Cert.ReferenceIdeal.Hand.mem_uc _ (by decide))).trans (Cert.ReferenceIdeal.Hand.W7_main_arg4 m' ρ' c),
      (h c _ (Cert.ReferenceIdeal.Hand.mem_uc _ (by decide))).trans (Cert.ReferenceIdeal.Hand.W7_main_arg5 m' ρ' c),
      (h c _ (Cert.ReferenceIdeal.Hand.mem_uc _ (by decide))).trans (Cert.ReferenceIdeal.Hand.W7_main_arg6 m' ρ' c)⟩

end Cert.Bridge

end
-- ==== Proof.lean ====
/-
  A residual block: a 3x3 convolution with its per-channel sums, the same on the normalised activations, then
  max(x * scale + shift, 0). Each program is three kernel regions among four stretches of host operations; the frames run
  the regions image by image, and the equivalence is an induction over the images (a change of float format is the
  identity on the extended reals).
-/
import proofs.«162787_g2000605952690631_pallasbulk_304_2_alg».proof.Defs
import proofs.«162787_g2000605952690631_pallasbulk_304_2_alg».proof.Proof.Gen.Kernel
import proofs.«162787_g2000605952690631_pallasbulk_304_2_alg».proof.Proof.Gen.KernelIdeal
import proofs.«162787_g2000605952690631_pallasbulk_304_2_alg».proof.Proof.Gen.ReferenceIdeal
import proofs.«162787_g2000605952690631_pallasbulk_304_2_alg».proof.Proof.Gen.Pre_finite_inputs
import proofs.«162787_g2000605952690631_pallasbulk_304_2_alg».proof.Proof.KI.Run
import proofs.«162787_g2000605952690631_pallasbulk_304_2_alg».proof.Proof.RI.Run
import proofs.«162787_g2000605952690631_pallasbulk_304_2_alg».proof.Proof.BridgeAll

noncomputable section

namespace Cert.Proof

open Idealize.ShloMosaic Idealize.SL.Sem Idealize.ShloMosaic.Tactic

theorem frame_ki : Cert.frame_KernelIdeal := fun m ρ _ => Cert.KernelIdeal.Hand.frame (F := Ideal) m ρ
theorem frame_ri : Cert.frame_ReferenceIdeal := fun m ρ _ => Cert.ReferenceIdeal.Hand.frame (F := Ideal) m ρ

/-- The idealization rewrote nothing, so the kernel and its idealization are one program text: the frame proved for
    that text over any float instance is the kernel's own. -/
theorem frame_k : Cert.frame_Kernel :=
  cast (by sl_kernel_rfl) fun m ρ (_ : Cert.Pre_Kernel m) => Cert.KernelIdeal.Hand.frame (F := Bits) m ρ

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Bridge.algebraic⟩

end Cert.Proof

end
